-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![4, 256, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![4, 256, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S1x256x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Pre_finite_inputs_ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  main_v23

def fn {F : FTy → Type} [FloatOps F] (main_arg0 : FVec F S4x256x1024 .f32) (main_arg1 : FVec F S1024x4096 .f32) (main_arg2 : FVec F S4096x1024 .f32) (main_arg3 : FVec F S1024x4096 .f32) (main_arg4 : FVec F S1024x4096 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S1x256x1024 : Shape := ⟨3, ![1, 256, 1024]⟩
abbrev S1024x1024 : Shape := ⟨2, ![1024, 1024]⟩
abbrev S4x1024x1024 : Shape := ⟨3, ![4, 1024, 1024]⟩
abbrev S256x1024 : Shape := ⟨2, ![256, 1024]⟩
abbrev S3x256x1024 : Shape := ⟨3, ![3, 256, 1024]⟩
abbrev S3x2x128x1024 : Shape := ⟨4, ![3, 2, 128, 1024]⟩
abbrev S5 : Shape := ⟨1, ![5]⟩
abbrev S3 : Shape := ⟨1, ![3]⟩
abbrev S3x2 : Shape := ⟨2, ![3, 2]⟩
abbrev S1 : Shape := ⟨1, ![1]⟩
abbrev S_ : Shape := ⟨0, ![]⟩
abbrev S1x1024x1024 : Shape := ⟨3, ![1, 1024, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S1x1x128x1024 : Shape := ⟨4, ![1, 1, 128, 1024]⟩
abbrev S1x1 : Shape := ⟨2, ![1, 1]⟩
abbrev S1x128x1024 : Shape := ⟨3, ![1, 128, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .bf16⟩
  | .local _ .vmem, ⟨0, _⟩ => ⟨S1x256x1024, .f32⟩
  | .local _ .vmem, ⟨1, _⟩ => ⟨S4x1024x1024, .f32⟩
  | .local _ .vmem, ⟨2, _⟩ => ⟨S256x1024, .bf16⟩
  | .local _ .vmem, ⟨3, _⟩ => ⟨S3x256x1024, .bf16⟩
  | .local _ .vmem, ⟨4, _⟩ => ⟨S3x2x128x1024, .bf16⟩
  | .local _ .vmem, ⟨5, _⟩ => ⟨S3x2x128x1024, .bf16⟩
  | .local _ .vmem, ⟨6, _⟩ => ⟨S1x256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v22 : BitVec 32 := Scalar.addi v2 c1_i32_14
  let c4_i32_15 : BitVec 32 := 4#32
  let c0_i32_16 : BitVec 32 := 0#32
  let v23 : BitVec 1 := Scalar.cmpi .eq c4_i32_15 c0_i32_16
  let c1_i32_17 : BitVec 32 := 1#32
  let v24 : BitVec 32 := Scalar.select v23 c1_i32_17 c4_i32_15
  let v25 : BitVec 32 := Scalar.remsi v22 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c1_i32_22 : BitVec 32 := 1#32
  let v33 : BitVec 32 := Scalar.muli v32 c1_i32_22
  let v34 : BitVec 32 := Scalar.addi c0_i32_23 v33
  v34.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v35 : BitVec 32 := Scalar.addi v2 c2_i32_24
  let c4_i32_25 : BitVec 32 := 4#32
  let c0_i32_26 : BitVec 32 := 0#32
  let v36 : BitVec 1 := Scalar.cmpi .eq c4_i32_25 c0_i32_26
  let c1_i32_27 : BitVec 32 := 1#32
  let v37 : BitVec 32 := Scalar.select v36 c1_i32_27 c4_i32_25
  let v38 : BitVec 32 := Scalar.remsi v35 v37
  let c0_i32_29 : BitVec 32 := 0#32
  let v40 : BitVec 1 := Scalar.cmpi .slt v38 c0_i32_29
  let c0_i32_30 : BitVec 32 := 0#32
  let v41 : BitVec 1 := Scalar.cmpi .slt v37 c0_i32_30
  let v42 : BitVec 1 := Scalar.xori v40 v41
  let c0_i32_28 : BitVec 32 := 0#32
  let v39 : BitVec 1 := Scalar.cmpi .ne v38 c0_i32_28
  let v43 : BitVec 1 := Scalar.andi v42 v39
  let v44 : BitVec 32 := Scalar.addi v38 v37
  let v45 : BitVec 32 := Scalar.select v43 v44 v38
  let c1_i32_32 : BitVec 32 := 1#32
  let v46 : BitVec 32 := Scalar.muli v45 c1_i32_32
  let v47 : BitVec 32 := Scalar.addi c0_i32_33 v46
  v47.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v48 : BitVec 32 := Scalar.addi v2 c3_i32_34
  let c4_i32_35 : BitVec 32 := 4#32
  let c0_i32_36 : BitVec 32 := 0#32
  let v49 : BitVec 1 := Scalar.cmpi .eq c4_i32_35 c0_i32_36
  let c1_i32_37 : BitVec 32 := 1#32
  let v50 : BitVec 32 := Scalar.select v49 c1_i32_37 c4_i32_35
  let v51 : BitVec 32 := Scalar.remsi v48 v50
  let c0_i32_39 : BitVec 32 := 0#32
  let v53 : BitVec 1 := Scalar.cmpi .slt v51 c0_i32_39
  let c0_i32_40 : BitVec 32 := 0#32
  let v54 : BitVec 1 := Scalar.cmpi .slt v50 c0_i32_40
  let v55 : BitVec 1 := Scalar.xori v53 v54
  let c0_i32_38 : BitVec 32 := 0#32
  let v52 : BitVec 1 := Scalar.cmpi .ne v51 c0_i32_38
  let v56 : BitVec 1 := Scalar.andi v55 v52
  let v57 : BitVec 32 := Scalar.addi v51 v50
  let v58 : BitVec 32 := Scalar.select v56 v57 v51
  let c1_i32_42 : BitVec 32 := 1#32
  let v59 : BitVec 32 := Scalar.muli v58 c1_i32_42
  let v60 : BitVec 32 := Scalar.addi c0_i32_43 v59
  v60.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v69 : BitVec 32 := Scalar.addi v2 c1_i32_50
  let c4_i32_51 : BitVec 32 := 4#32
  let c0_i32_52 : BitVec 32 := 0#32
  let v70 : BitVec 1 := Scalar.cmpi .eq c4_i32_51 c0_i32_52
  let c1_i32_53 : BitVec 32 := 1#32
  let v71 : BitVec 32 := Scalar.select v70 c1_i32_53 c4_i32_51
  let v72 : BitVec 32 := Scalar.remsi v69 v71
  let c0_i32_55 : BitVec 32 := 0#32
  let v74 : BitVec 1 := Scalar.cmpi .slt v72 c0_i32_55
  let c0_i32_56 : BitVec 32 := 0#32
  let v75 : BitVec 1 := Scalar.cmpi .slt v71 c0_i32_56
  let v76 : BitVec 1 := Scalar.xori v74 v75
  let c0_i32_54 : BitVec 32 := 0#32
  let v73 : BitVec 1 := Scalar.cmpi .ne v72 c0_i32_54
  let v77 : BitVec 1 := Scalar.andi v76 v73
  let v78 : BitVec 32 := Scalar.addi v72 v71
  let v79 : BitVec 32 := Scalar.select v77 v78 v72
  let c1_i32_60 : BitVec 32 := 1#32
  let v80 : BitVec 32 := Scalar.muli v79 c1_i32_60
  let v81 : BitVec 32 := Scalar.addi c0_i32_61 v80
  v81.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v88 : BitVec 32 := Scalar.addi v2 c3_i32_64
  let c4_i32_65 : BitVec 32 := 4#32
  let c0_i32_66 : BitVec 32 := 0#32
  let v89 : BitVec 1 := Scalar.cmpi .eq c4_i32_65 c0_i32_66
  let c1_i32_67 : BitVec 32 := 1#32
  let v90 : BitVec 32 := Scalar.select v89 c1_i32_67 c4_i32_65
  let v91 : BitVec 32 := Scalar.remsi v88 v90
  let c0_i32_69 : BitVec 32 := 0#32
  let v93 : BitVec 1 := Scalar.cmpi .slt v91 c0_i32_69
  let c0_i32_70 : BitVec 32 := 0#32
  let v94 : BitVec 1 := Scalar.cmpi .slt v90 c0_i32_70
  let v95 : BitVec 1 := Scalar.xori v93 v94
  let c0_i32_68 : BitVec 32 := 0#32
  let v92 : BitVec 1 := Scalar.cmpi .ne v91 c0_i32_68
  let v96 : BitVec 1 := Scalar.andi v95 v92
  let v97 : BitVec 32 := Scalar.addi v91 v90
  let v98 : BitVec 32 := Scalar.select v96 v97 v91
  let c1_i32_74 : BitVec 32 := 1#32
  let v99 : BitVec 32 := Scalar.muli v98 c1_i32_74
  let v100 : BitVec 32 := Scalar.addi c0_i32_75 v99
  v100.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_78 : BitVec 32 := 2#32
  let v107 : BitVec 32 := Scalar.addi v2 c2_i32_78
  let c4_i32_79 : BitVec 32 := 4#32
  let c0_i32_80 : BitVec 32 := 0#32
  let v108 : BitVec 1 := Scalar.cmpi .eq c4_i32_79 c0_i32_80
  let c1_i32_81 : BitVec 32 := 1#32
  let v109 : BitVec 32 := Scalar.select v108 c1_i32_81 c4_i32_79
  let v110 : BitVec 32 := Scalar.remsi v107 v109
  let c0_i32_83 : BitVec 32 := 0#32
  let v112 : BitVec 1 := Scalar.cmpi .slt v110 c0_i32_83
  let c0_i32_84 : BitVec 32 := 0#32
  let v113 : BitVec 1 := Scalar.cmpi .slt v109 c0_i32_84
  let v114 : BitVec 1 := Scalar.xori v112 v113
  let c0_i32_82 : BitVec 32 := 0#32
  let v111 : BitVec 1 := Scalar.cmpi .ne v110 c0_i32_82
  let v115 : BitVec 1 := Scalar.andi v114 v111
  let v116 : BitVec 32 := Scalar.addi v110 v109
  let v117 : BitVec 32 := Scalar.select v115 v116 v110
  let c1_i32_88 : BitVec 32 := 1#32
  let v118 : BitVec 32 := Scalar.muli v117 c1_i32_88
  let v119 : BitVec 32 := Scalar.addi c0_i32_89 v118
  v119.toNat
def k0_dev7 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_266 : BitVec 32 := 4#32
  let v624 : BitVec 32 := Scalar.addi v2 c4_i32_266
  let c1_i32_267 : BitVec 32 := 1#32
  let v625 : BitVec 32 := Scalar.subi v624 c1_i32_267
  let c4_i32_268 : BitVec 32 := 4#32
  let c0_i32_269 : BitVec 32 := 0#32
  let v626 : BitVec 1 := Scalar.cmpi .eq c4_i32_268 c0_i32_269
  let c1_i32_270 : BitVec 32 := 1#32
  let v627 : BitVec 32 := Scalar.select v626 c1_i32_270 c4_i32_268
  let v628 : BitVec 32 := Scalar.remsi v625 v627
  let c0_i32_272 : BitVec 32 := 0#32
  let v630 : BitVec 1 := Scalar.cmpi .slt v628 c0_i32_272
  let c0_i32_273 : BitVec 32 := 0#32
  let v631 : BitVec 1 := Scalar.cmpi .slt v627 c0_i32_273
  let v632 : BitVec 1 := Scalar.xori v630 v631
  let c0_i32_271 : BitVec 32 := 0#32
  let v629 : BitVec 1 := Scalar.cmpi .ne v628 c0_i32_271
  let v633 : BitVec 1 := Scalar.andi v632 v629
  let v634 : BitVec 32 := Scalar.addi v628 v627
  let v635 : BitVec 32 := Scalar.select v633 v634 v628
  let c1_i32_282 : BitVec 32 := 1#32
  let v636 : BitVec 32 := Scalar.muli v635 c1_i32_282
  let v637 : BitVec 32 := Scalar.addi c0_i32_283 v636
  v637.toNat
def k0_dev8 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_334 : BitVec 32 := 4#32
  let v799 : BitVec 32 := Scalar.addi v2 c4_i32_334
  let c1_i32_335 : BitVec 32 := 1#32
  let v800 : BitVec 32 := Scalar.subi v799 c1_i32_335
  let c4_i32_336 : BitVec 32 := 4#32
  let c0_i32_337 : BitVec 32 := 0#32
  let v801 : BitVec 1 := Scalar.cmpi .eq c4_i32_336 c0_i32_337
  let c1_i32_338 : BitVec 32 := 1#32
  let v802 : BitVec 32 := Scalar.select v801 c1_i32_338 c4_i32_336
  let v803 : BitVec 32 := Scalar.remsi v800 v802
  let c0_i32_340 : BitVec 32 := 0#32
  let v805 : BitVec 1 := Scalar.cmpi .slt v803 c0_i32_340
  let c0_i32_341 : BitVec 32 := 0#32
  let v806 : BitVec 1 := Scalar.cmpi .slt v802 c0_i32_341
  let v807 : BitVec 1 := Scalar.xori v805 v806
  let c0_i32_339 : BitVec 32 := 0#32
  let v804 : BitVec 1 := Scalar.cmpi .ne v803 c0_i32_339
  let v808 : BitVec 1 := Scalar.andi v807 v804
  let v809 : BitVec 32 := Scalar.addi v803 v802
  let v810 : BitVec 32 := Scalar.select v808 v809 v803
  let c1_i32_350 : BitVec 32 := 1#32
  let v811 : BitVec 32 := Scalar.muli v810 c1_i32_350
  let v812 : BitVec 32 := Scalar.addi c0_i32_351 v811
  v812.toNat
def k0_dev9 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_414 : BitVec 32 := 4#32
  let v986 : BitVec 32 := Scalar.addi v2 c4_i32_414
  let c3_i32_415 : BitVec 32 := 3#32
  let v987 : BitVec 32 := Scalar.subi v986 c3_i32_415
  let c4_i32_416 : BitVec 32 := 4#32
  let c0_i32_417 : BitVec 32 := 0#32
  let v988 : BitVec 1 := Scalar.cmpi .eq c4_i32_416 c0_i32_417
  let c1_i32_418 : BitVec 32 := 1#32
  let v989 : BitVec 32 := Scalar.select v988 c1_i32_418 c4_i32_416
  let v990 : BitVec 32 := Scalar.remsi v987 v989
  let c0_i32_420 : BitVec 32 := 0#32
  let v992 : BitVec 1 := Scalar.cmpi .slt v990 c0_i32_420
  let c0_i32_421 : BitVec 32 := 0#32
  let v993 : BitVec 1 := Scalar.cmpi .slt v989 c0_i32_421
  let v994 : BitVec 1 := Scalar.xori v992 v993
  let c0_i32_419 : BitVec 32 := 0#32
  let v991 : BitVec 1 := Scalar.cmpi .ne v990 c0_i32_419
  let v995 : BitVec 1 := Scalar.andi v994 v991
  let v996 : BitVec 32 := Scalar.addi v990 v989
  let v997 : BitVec 32 := Scalar.select v995 v996 v990
  let c1_i32_430 : BitVec 32 := 1#32
  let v998 : BitVec 32 := Scalar.muli v997 c1_i32_430
  let v999 : BitVec 32 := Scalar.addi c0_i32_431 v998
  v999.toNat
def k0_dev10 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_482 : BitVec 32 := 4#32
  let v1161 : BitVec 32 := Scalar.addi v2 c4_i32_482
  let c3_i32_483 : BitVec 32 := 3#32
  let v1162 : BitVec 32 := Scalar.subi v1161 c3_i32_483
  let c4_i32_484 : BitVec 32 := 4#32
  let c0_i32_485 : BitVec 32 := 0#32
  let v1163 : BitVec 1 := Scalar.cmpi .eq c4_i32_484 c0_i32_485
  let c1_i32_486 : BitVec 32 := 1#32
  let v1164 : BitVec 32 := Scalar.select v1163 c1_i32_486 c4_i32_484
  let v1165 : BitVec 32 := Scalar.remsi v1162 v1164
  let c0_i32_488 : BitVec 32 := 0#32
  let v1167 : BitVec 1 := Scalar.cmpi .slt v1165 c0_i32_488
  let c0_i32_489 : BitVec 32 := 0#32
  let v1168 : BitVec 1 := Scalar.cmpi .slt v1164 c0_i32_489
  let v1169 : BitVec 1 := Scalar.xori v1167 v1168
  let c0_i32_487 : BitVec 32 := 0#32
  let v1166 : BitVec 1 := Scalar.cmpi .ne v1165 c0_i32_487
  let v1170 : BitVec 1 := Scalar.andi v1169 v1166
  let v1171 : BitVec 32 := Scalar.addi v1165 v1164
  let v1172 : BitVec 32 := Scalar.select v1170 v1171 v1165
  let c1_i32_498 : BitVec 32 := 1#32
  let v1173 : BitVec 32 := Scalar.muli v1172 c1_i32_498
  let v1174 : BitVec 32 := Scalar.addi c0_i32_499 v1173
  v1174.toNat
def k0_dev11 (d0 : Dev nD) : Nat :=
  let c0_i32_579 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_562 : BitVec 32 := 4#32
  let v1348 : BitVec 32 := Scalar.addi v2 c4_i32_562
  let c2_i32_563 : BitVec 32 := 2#32
  let v1349 : BitVec 32 := Scalar.subi v1348 c2_i32_563
  let c4_i32_564 : BitVec 32 := 4#32
  let c0_i32_565 : BitVec 32 := 0#32
  let v1350 : BitVec 1 := Scalar.cmpi .eq c4_i32_564 c0_i32_565
  let c1_i32_566 : BitVec 32 := 1#32
  let v1351 : BitVec 32 := Scalar.select v1350 c1_i32_566 c4_i32_564
  let v1352 : BitVec 32 := Scalar.remsi v1349 v1351
  let c0_i32_568 : BitVec 32 := 0#32
  let v1354 : BitVec 1 := Scalar.cmpi .slt v1352 c0_i32_568
  let c0_i32_569 : BitVec 32 := 0#32
  let v1355 : BitVec 1 := Scalar.cmpi .slt v1351 c0_i32_569
  let v1356 : BitVec 1 := Scalar.xori v1354 v1355
  let c0_i32_567 : BitVec 32 := 0#32
  let v1353 : BitVec 1 := Scalar.cmpi .ne v1352 c0_i32_567
  let v1357 : BitVec 1 := Scalar.andi v1356 v1353
  let v1358 : BitVec 32 := Scalar.addi v1352 v1351
  let v1359 : BitVec 32 := Scalar.select v1357 v1358 v1352
  let c1_i32_578 : BitVec 32 := 1#32
  let v1360 : BitVec 32 := Scalar.muli v1359 c1_i32_578
  let v1361 : BitVec 32 := Scalar.addi c0_i32_579 v1360
  v1361.toNat
def k0_dev12 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_630 : BitVec 32 := 4#32
  let v1523 : BitVec 32 := Scalar.addi v2 c4_i32_630
  let c2_i32_631 : BitVec 32 := 2#32
  let v1524 : BitVec 32 := Scalar.subi v1523 c2_i32_631
  let c4_i32_632 : BitVec 32 := 4#32
  let c0_i32_633 : BitVec 32 := 0#32
  let v1525 : BitVec 1 := Scalar.cmpi .eq c4_i32_632 c0_i32_633
  let c1_i32_634 : BitVec 32 := 1#32
  let v1526 : BitVec 32 := Scalar.select v1525 c1_i32_634 c4_i32_632
  let v1527 : BitVec 32 := Scalar.remsi v1524 v1526
  let c0_i32_636 : BitVec 32 := 0#32
  let v1529 : BitVec 1 := Scalar.cmpi .slt v1527 c0_i32_636
  let c0_i32_637 : BitVec 32 := 0#32
  let v1530 : BitVec 1 := Scalar.cmpi .slt v1526 c0_i32_637
  let v1531 : BitVec 1 := Scalar.xori v1529 v1530
  let c0_i32_635 : BitVec 32 := 0#32
  let v1528 : BitVec 1 := Scalar.cmpi .ne v1527 c0_i32_635
  let v1532 : BitVec 1 := Scalar.andi v1531 v1528
  let v1533 : BitVec 32 := Scalar.addi v1527 v1526
  let v1534 : BitVec 32 := Scalar.select v1532 v1533 v1527
  let c1_i32_646 : BitVec 32 := 1#32
  let v1535 : BitVec 32 := Scalar.muli v1534 c1_i32_646
  let v1536 : BitVec 32 := Scalar.addi c0_i32_647 v1535
  v1536.toNat

class Facts₀ : Prop where
  inb_S5_S1_4 : ∀ a, (![4] : Fin 1 → Nat) a + S1.size a ≤ S5.size a
  squeezes_S1_S_ : S1.Squeezes S_
  inb_S5_S1_0 : ∀ a, (![0] : Fin 1 → Nat) a + S1.size a ≤ S5.size a
  inb_S4x1024x1024_S1x1024x1024_0_0_0 : ∀ a, (![0, 0, 0] : Fin 3 → Nat) a + S1x1024x1024.size a ≤ S4x1024x1024.size a
  squeezes_S1x1024x1024_S1024x1024 : S1x1024x1024.Squeezes S1024x1024
  inb_S5_S1_1 : ∀ a, (![1] : Fin 1 → Nat) a + S1.size a ≤ S5.size a
  inb_S4x1024x1024_S1x1024x1024_1_0_0 : ∀ a, (![1, 0, 0] : Fin 3 → Nat) a + S1x1024x1024.size a ≤ S4x1024x1024.size a
  inb_S5_S1_2 : ∀ a, (![2] : Fin 1 → Nat) a + S1.size a ≤ S5.size a
  inb_S4x1024x1024_S1x1024x1024_2_0_0 : ∀ a, (![2, 0, 0] : Fin 3 → Nat) a + S1x1024x1024.size a ≤ S4x1024x1024.size a
  inb_S5_S1_3 : ∀ a, (![3] : Fin 1 → Nat) a + S1.size a ≤ S5.size a
  inb_S4x1024x1024_S1x1024x1024_3_0_0 : ∀ a, (![3, 0, 0] : Fin 3 → Nat) a + S1x1024x1024.size a ≤ S4x1024x1024.size a
  hamt_1 : (1#32 : BitVec 32).msb = false
  hamt_3 : (3#32 : BitVec 32).msb = false
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  packedbf16_S256x1024_S256x1024_0_0 : (Rect.unit (s := S256x1024) ![0, 0] S256x1024.size inb_S256x1024_S256x1024_0_0).PackedRows (EltTy.packing .bf16)
  inb_S3_S1_0 : ∀ a, (![0] : Fin 1 → Nat) a + S1.size a ≤ S3.size a
  inb_S3x256x1024_S1x256x1024_0_0_0 : ∀ a, (![0, 0, 0] : Fin 3 → Nat) a + S1x256x1024.size a ≤ S3x256x1024.size a
  squeezes_S1x256x1024_S256x1024 : S1x256x1024.Squeezes S256x1024
  wordsbf16_S3x256x1024_S1x256x1024_0_0_0 : (Rect.unit (s := S3x256x1024) ![0, 0, 0] S1x256x1024.size inb_S3x256x1024_S1x256x1024_0_0_0).WholeWords (EltTy.packing .bf16)
  inb_S3_S1_2 : ∀ a, (![2] : Fin 1 → Nat) a + S1.size a ≤ S3.size a
  inb_S3x256x1024_S1x256x1024_2_0_0 : ∀ a, (![2, 0, 0] : Fin 3 → Nat) a + S1x256x1024.size a ≤ S3x256x1024.size a
  wordsbf16_S3x256x1024_S1x256x1024_2_0_0 : (Rect.unit (s := S3x256x1024) ![2, 0, 0] S1x256x1024.size inb_S3x256x1024_S1x256x1024_2_0_0).WholeWords (EltTy.packing .bf16)
  inb_S3_S1_1 : ∀ a, (![1] : Fin 1 → Nat) a + S1.size a ≤ S3.size a
  inb_S3x256x1024_S1x256x1024_1_0_0 : ∀ a, (![1, 0, 0] : Fin 3 → Nat) a + S1x256x1024.size a ≤ S3x256x1024.size a
  wordsbf16_S3x256x1024_S1x256x1024_1_0_0 : (Rect.unit (s := S3x256x1024) ![1, 0, 0] S1x256x1024.size inb_S3x256x1024_S1x256x1024_1_0_0).WholeWords (EltTy.packing .bf16)
  h_S1x1024x1024 : 0 < S1x1024x1024.numel
  shapeCasts_S1x1024x1024_S1024x1024 : S1x1024x1024.ShapeCasts S1024x1024
  slices_S256x1024_o0_0_S128x1024 : S256x1024.Slices ![0, 0] S128x1024
  slices_S128x1024_o0_0_S128x128 : S128x1024.Slices ![0, 0] S128x128
  slices_S256x1024_o0_0_S256x128 : S256x1024.Slices ![0, 0] S256x128
  reduces_S128x256_S128 : S128x256.Reduces [1] S128
  shapeCasts_S128_S128x1 : S128.ShapeCasts S128x1
  broadcasts_S128x1_S128x256 : S128x1.Broadcasts S128x256
  broadcasts_S128x1_S128x128 : S128x1.Broadcasts S128x128
  slices_S128x1024_o0_128_S128x128 : S128x1024.Slices ![0, 128] S128x128
  slices_S256x1024_o0_128_S256x128 : S256x1024.Slices ![0, 128] S256x128
  slices_S128x1024_o0_256_S128x128 : S128x1024.Slices ![0, 256] S128x128
  slices_S256x1024_o0_256_S256x128 : S256x1024.Slices ![0, 256] S256x128
  slices_S128x1024_o0_384_S128x128 : S128x1024.Slices ![0, 384] S128x128
  slices_S256x1024_o0_384_S256x128 : S256x1024.Slices ![0, 384] S256x128
  slices_S128x1024_o0_512_S128x128 : S128x1024.Slices ![0, 512] S128x128
  slices_S256x1024_o0_512_S256x128 : S256x1024.Slices ![0, 512] S256x128
  slices_S128x1024_o0_640_S128x128 : S128x1024.Slices ![0, 640] S128x128
  slices_S256x1024_o0_640_S256x128 : S256x1024.Slices ![0, 640] S256x128
  slices_S128x1024_o0_768_S128x128 : S128x1024.Slices ![0, 768] S128x128
  slices_S256x1024_o0_768_S256x128 : S256x1024.Slices ![0, 768] S256x128
  slices_S128x1024_o0_896_S128x128 : S128x1024.Slices ![0, 896] S128x128
  slices_S256x1024_o0_896_S256x128 : S256x1024.Slices ![0, 896] S256x128
  concatenates_S128x128_S128x128_S128x128_S128x128_S128x128_S128x128_S128x128_S128x128_S128x1024_d1 : Shape.Concatenates [S128x128, S128x128, S128x128, S128x128, S128x128, S128x128, S128x128, S128x128] S128x1024 1
  slices_S256x1024_o128_0_S128x1024 : S256x1024.Slices ![128, 0] S128x1024
  inb_S3x2x128x1024_S1x1x128x1024_0_0_0_0 : ∀ a, (![0, 0, 0, 0] : Fin 4 → Nat) a + S1x1x128x1024.size a ≤ S3x2x128x1024.size a
  h_S1x1x128x1024 : 0 < S1x1x128x1024.numel
  shapeCasts_S1x1x128x1024_S128x1024 : S1x1x128x1024.ShapeCasts S128x1024
  shapeCasts_S128x1024_S1x1x128x1024 : S128x1024.ShapeCasts S1x1x128x1024
  packedbf16_S3x2x128x1024_S1x1x128x1024_0_0_0_0 : (Rect.unit (s := S3x2x128x1024) ![0, 0, 0, 0] S1x1x128x1024.size inb_S3x2x128x1024_S1x1x128x1024_0_0_0_0).PackedRows (EltTy.packing .bf16)
  inb_S3x2_S1x1_0_0 : ∀ a, (![0, 0] : Fin 2 → Nat) a + S1x1.size a ≤ S3x2.size a
  squeezes_S1x1_S_ : S1x1.Squeezes S_
  squeezes_S1x1x128x1024_S128x1024 : S1x1x128x1024.Squeezes S128x1024
  wordsbf16_S3x2x128x1024_S1x1x128x1024_0_0_0_0 : (Rect.unit (s := S3x2x128x1024) ![0, 0, 0, 0] S1x1x128x1024.size inb_S3x2x128x1024_S1x1x128x1024_0_0_0_0).WholeWords (EltTy.packing .bf16)
  inb_S3x2x128x1024_S1x1x128x1024_0_1_0_0 : ∀ a, (![0, 1, 0, 0] : Fin 4 → Nat) a + S1x1x128x1024.size a ≤ S3x2x128x1024.size a
  packedbf16_S3x2x128x1024_S1x1x128x1024_0_1_0_0 : (Rect.unit (s := S3x2x128x1024) ![0, 1, 0, 0] S1x1x128x1024.size inb_S3x2x128x1024_S1x1x128x1024_0_1_0_0).PackedRows (EltTy.packing .bf16)
  inb_S3x2_S1x1_0_1 : ∀ a, (![0, 1] : Fin 2 → Nat) a + S1x1.size a ≤ S3x2.size a
  wordsbf16_S3x2x128x1024_S1x1x128x1024_0_1_0_0 : (Rect.unit (s := S3x2x128x1024) ![0, 1, 0, 0] S1x1x128x1024.size inb_S3x2x128x1024_S1x1x128x1024_0_1_0_0).WholeWords (EltTy.packing .bf16)
  inb_S3x2x128x1024_S1x1x128x1024_2_0_0_0 : ∀ a, (![2, 0, 0, 0] : Fin 4 → Nat) a + S1x1x128x1024.size a ≤ S3x2x128x1024.size a
  packedbf16_S3x2x128x1024_S1x1x128x1024_2_0_0_0 : (Rect.unit (s := S3x2x128x1024) ![2, 0, 0, 0] S1x1x128x1024.size inb_S3x2x128x1024_S1x1x128x1024_2_0_0_0).PackedRows (EltTy.packing .bf16)
  inb_S3x2_S1x1_2_0 : ∀ a, (![2, 0] : Fin 2 → Nat) a + S1x1.size a ≤ S3x2.size a
  wordsbf16_S3x2x128x1024_S1x1x128x1024_2_0_0_0 : (Rect.unit (s := S3x2x128x1024) ![2, 0, 0, 0] S1x1x128x1024.size inb_S3x2x128x1024_S1x1x128x1024_2_0_0_0).WholeWords (EltTy.packing .bf16)
  inb_S3x2x128x1024_S1x1x128x1024_2_1_0_0 : ∀ a, (![2, 1, 0, 0] : Fin 4 → Nat) a + S1x1x128x1024.size a ≤ S3x2x128x1024.size a
  packedbf16_S3x2x128x1024_S1x1x128x1024_2_1_0_0 : (Rect.unit (s := S3x2x128x1024) ![2, 1, 0, 0] S1x1x128x1024.size inb_S3x2x128x1024_S1x1x128x1024_2_1_0_0).PackedRows (EltTy.packing .bf16)
  inb_S3x2_S1x1_2_1 : ∀ a, (![2, 1] : Fin 2 → Nat) a + S1x1.size a ≤ S3x2.size a
  wordsbf16_S3x2x128x1024_S1x1x128x1024_2_1_0_0 : (Rect.unit (s := S3x2x128x1024) ![2, 1, 0, 0] S1x1x128x1024.size inb_S3x2x128x1024_S1x1x128x1024_2_1_0_0).WholeWords (EltTy.packing .bf16)
  inb_S3x2x128x1024_S1x1x128x1024_1_0_0_0 : ∀ a, (![1, 0, 0, 0] : Fin 4 → Nat) a + S1x1x128x1024.size a ≤ S3x2x128x1024.size a
  packedbf16_S3x2x128x1024_S1x1x128x1024_1_0_0_0 : (Rect.unit (s := S3x2x128x1024) ![1, 0, 0, 0] S1x1x128x1024.size inb_S3x2x128x1024_S1x1x128x1024_1_0_0_0).PackedRows (EltTy.packing .bf16)
  inb_S3x2_S1x1_1_0 : ∀ a, (![1, 0] : Fin 2 → Nat) a + S1x1.size a ≤ S3x2.size a
  wordsbf16_S3x2x128x1024_S1x1x128x1024_1_0_0_0 : (Rect.unit (s := S3x2x128x1024) ![1, 0, 0, 0] S1x1x128x1024.size inb_S3x2x128x1024_S1x1x128x1024_1_0_0_0).WholeWords (EltTy.packing .bf16)
  inb_S3x2x128x1024_S1x1x128x1024_1_1_0_0 : ∀ a, (![1, 1, 0, 0] : Fin 4 → Nat) a + S1x1x128x1024.size a ≤ S3x2x128x1024.size a
  packedbf16_S3x2x128x1024_S1x1x128x1024_1_1_0_0 : (Rect.unit (s := S3x2x128x1024) ![1, 1, 0, 0] S1x1x128x1024.size inb_S3x2x128x1024_S1x1x128x1024_1_1_0_0).PackedRows (EltTy.packing .bf16)
  inb_S3x2_S1x1_1_1 : ∀ a, (![1, 1] : Fin 2 → Nat) a + S1x1.size a ≤ S3x2.size a
  wordsbf16_S3x2x128x1024_S1x1x128x1024_1_1_0_0 : (Rect.unit (s := S3x2x128x1024) ![1, 1, 0, 0] S1x1x128x1024.size inb_S3x2x128x1024_S1x1x128x1024_1_1_0_0).WholeWords (EltTy.packing .bf16)
  inb_S1x256x1024_S1x128x1024_0_0_0 : ∀ a, (![0, 0, 0] : Fin 3 → Nat) a + S1x128x1024.size a ≤ S1x256x1024.size a
  h_S1x128x1024 : 0 < S1x128x1024.numel
  shapeCasts_S1x128x1024_S128x1024 : S1x128x1024.ShapeCasts S128x1024
  shapeCasts_S128x1024_S1x128x1024 : S128x1024.ShapeCasts S1x128x1024
  packedbf16_S1x256x1024_S1x128x1024_0_0_0 : (Rect.unit (s := S1x256x1024) ![0, 0, 0] S1x128x1024.size inb_S1x256x1024_S1x128x1024_0_0_0).PackedRows (EltTy.packing .bf16)
  inb_S1x256x1024_S1x128x1024_0_128_0 : ∀ a, (![0, 128, 0] : Fin 3 → Nat) a + S1x128x1024.size a ≤ S1x256x1024.size a
  packedbf16_S1x256x1024_S1x128x1024_0_128_0 : (Rect.unit (s := S1x256x1024) ![0, 128, 0] S1x128x1024.size inb_S1x256x1024_S1x128x1024_0_128_0).PackedRows (EltTy.packing .bf16)
  dot_S256x1024_S1024x1024_S256x1024_1_0_0_1_n_n_wf : DotDims.WF S256x1024 S1024x1024 S256x1024 [1] [0] [0] [1] [] []
  dot_S128x1024_S1024x1024_S128x1024_1_0_0_1_n_n_wf : DotDims.WF S128x1024 S1024x1024 S128x1024 [1] [0] [0] [1] [] []
  dot_S128x128_S256x128_S128x256_1_1_0_0_n_n_wf : DotDims.WF S128x128 S256x128 S128x256 [1] [1] [0] [0] [] []
  dot_S128x256_S256x128_S128x128_1_0_0_1_n_n_wf : DotDims.WF S128x256 S256x128 S128x128 [1] [0] [0] [1] [] []
  hcc0_scratch7 : 0 + S5.numel ≤ 23
  hcc0_scratch8 : 5 + S3.numel ≤ 23
  hcc0_scratch9 : 8 + S3.numel ≤ 23
  hcc0_scratch10 : 11 + S3x2.numel ≤ 23
  hcc0_scratch11 : 17 + S3x2.numel ≤ 23
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD

variable [Facts₀]

abbrev cc0_scratch7 : DmaSems sig S5 := SemArray.consecutive 0 S5 hcc0_scratch7
abbrev cc0_scratch8 : DmaSems sig S3 := SemArray.consecutive 5 S3 hcc0_scratch8
abbrev cc0_scratch9 : DmaSems sig S3 := SemArray.consecutive 8 S3 hcc0_scratch9
abbrev cc0_scratch10 : DmaSems sig S3x2 := SemArray.consecutive 11 S3x2 hcc0_scratch10
abbrev cc0_scratch11 : DmaSems sig S3x2 := SemArray.consecutive 17 S3x2 hcc0_scratch11
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x128_S256x128_S128x256_1_1_0_0_n_n : DotDims S128x128 S256x128 S128x256 where
  lhsContracting := [1]
  rhsContracting := [1]
  lhsNonContracting := [0]
  rhsNonContracting := [0]
  lhsBatch := []
  rhsBatch := []
  wf := dot_S128x128_S256x128_S128x256_1_1_0_0_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S4x256x1024 : Shape := ⟨3, ![4, 256, 1024]⟩
abbrev S1024x4096 : Shape := ⟨2, ![1024, 4096]⟩
abbrev S4096x1024 : Shape := ⟨2, ![4096, 1024]⟩
abbrev S4x256x4096 : Shape := ⟨3, ![4, 256, 4096]⟩
abbrev S4x256x32x128 : Shape := ⟨4, ![4, 256, 32, 128]⟩
abbrev S_ : Shape := ⟨0, ![]⟩
abbrev S4x32x256x1 : Shape := ⟨4, ![4, 32, 256, 1]⟩
abbrev S4x32x256x256 : Shape := ⟨4, ![4, 32, 256, 256]⟩
abbrev S4x32x256 : Shape := ⟨3, ![4, 32, 256]⟩
abbrev S4x256x32x1 : Shape := ⟨4, ![4, 256, 32, 1]⟩
abbrev S4x32x128x256 : Shape := ⟨4, ![4, 32, 128, 256]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x4096, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4x256x4096, .f32⟩
  | .hbm, ⟨6, _⟩ => ⟨S4x256x32x128, .f32⟩
  | .hbm, ⟨7, _⟩ => ⟨S4x256x4096, .f32⟩
  | .hbm, ⟨8, _⟩ => ⟨S4x256x32x128, .f32⟩
  | .hbm, ⟨9, _⟩ => ⟨S4x256x4096, .f32⟩
  | .hbm, ⟨10, _⟩ => ⟨S4x256x32x128, .f32⟩
  | .hbm, ⟨11, _⟩ => ⟨S_, .f32⟩
  | .hbm, ⟨12, _⟩ => ⟨S4x256x32x128, .f32⟩
  | .hbm, ⟨13, _⟩ => ⟨S_, .f32⟩
  | .hbm, ⟨14, _⟩ => ⟨S4x32x256x1, .f32⟩
  | .hbm, ⟨15, _⟩ => ⟨S_, .f32⟩
  | .hbm, ⟨16, _⟩ => ⟨S4x32x256x1, .f32⟩
  | .hbm, ⟨17, _⟩ => ⟨S4x32x256x256, .f32⟩
  | .hbm, ⟨18, _⟩ => ⟨S_, .f32⟩
  | .hbm, ⟨19, _⟩ => ⟨S4x32x256x256, .f32⟩
  | .hbm, ⟨20, _⟩ => ⟨S4x32x256x256, .f32⟩
  | .hbm, ⟨21, _⟩ => ⟨S_, .f32⟩
  | .hbm, ⟨22, _⟩ => ⟨S4x32x256, .f32⟩
  | .hbm, ⟨23, _⟩ => ⟨S4x32x256x1, .f32⟩
  | .hbm, ⟨24, _⟩ => ⟨S4x32x256x1, .f32⟩
  | .hbm, ⟨25, _⟩ => ⟨S4x32x256x1, .f32⟩
  | .hbm, ⟨26, _⟩ => ⟨S4x32x256x1, .f32⟩
  | .hbm, ⟨27, _⟩ => ⟨S4x32x256x256, .f32⟩
  | .hbm, ⟨28, _⟩ => ⟨S4x32x256x256, .f32⟩
  | .hbm, ⟨29, _⟩ => ⟨S4x32x256x256, .f32⟩
  | .hbm, ⟨30, _⟩ => ⟨S4x32x256x1, .f32⟩
  | .hbm, ⟨31, _⟩ => ⟨S_, .f32⟩
  | .hbm, ⟨32, _⟩ => ⟨S4x32x256, .f32⟩
  | .hbm, ⟨33, _⟩ => ⟨S4x32x256x1, .f32⟩
  | .hbm, ⟨34, _⟩ => ⟨S4x32x256x1, .f32⟩
  | .hbm, ⟨35, _⟩ => ⟨S4x256x32x1, .f32⟩
  | .hbm, ⟨36, _⟩ => ⟨S4x256x32x128, .f32⟩
  | .hbm, ⟨37, _⟩ => ⟨S4x256x32x128, .f32⟩
  | .hbm, ⟨38, _⟩ => ⟨S4x32x128x256, .f32⟩
  | .hbm, ⟨39, _⟩ => ⟨S4x256x32x128, .f32⟩
  | .hbm, ⟨40, _⟩ => ⟨S4x256x32x128, .f32⟩
  | .hbm, ⟨41, _⟩ => ⟨S4x256x32x1, .f32⟩
  | .hbm, ⟨42, _⟩ => ⟨S4x256x32x128, .f32⟩
  | .hbm, ⟨43, _⟩ => ⟨S4x256x32x128, .f32⟩
  | .hbm, ⟨44, _⟩ => ⟨S4x256x4096, .f32⟩
  | .hbm, ⟨45, _⟩ => ⟨S4x256x1024, .f32⟩
  | .hbm, ⟨46, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  shapeCasts_S4x256x4096_S4x256x32x128 : S4x256x4096.ShapeCasts S4x256x32x128
  bcast_S_S4x256x32x128 : S_.BroadcastsInDim S4x256x32x128 (![] : Fin 0 → Fin S4x256x32x128.rank)
  bcast_S_S4x32x256x1 : S_.BroadcastsInDim S4x32x256x1 (![] : Fin 0 → Fin S4x32x256x1.rank)
  bcast_S_S4x32x256x256 : S_.BroadcastsInDim S4x32x256x256 (![] : Fin 0 → Fin S4x32x256x256.rank)
  reducesTo_S4x32x256x256_S4x32x256_d3 : S4x32x256x256.ReducesTo [3] S4x32x256
  h_S_ : 0 < S_.numel
  bcast_S4x32x256_S4x32x256x1_0_1_2 : S4x32x256.BroadcastsInDim S4x32x256x1 (![0, 1, 2] : Fin 3 → Fin S4x32x256x1.rank)
  bcast_S4x32x256x1_S4x32x256x256_0_1_2_3 : S4x32x256x1.BroadcastsInDim S4x32x256x256 (![0, 1, 2, 3] : Fin 4 → Fin S4x32x256x256.rank)
  transposes_S4x32x256x1_S4x256x32x1_0_2_1_3 : S4x32x256x1.Transposes [0, 2, 1, 3] S4x256x32x1
  bcast_S4x256x32x1_S4x256x32x128_0_1_2_3 : S4x256x32x1.BroadcastsInDim S4x256x32x128 (![0, 1, 2, 3] : Fin 4 → Fin S4x256x32x128.rank)
  transposes_S4x32x128x256_S4x256x32x128_0_3_1_2 : S4x32x128x256.Transposes [0, 3, 1, 2] S4x256x32x128
  shapeCasts_S4x256x32x128_S4x256x4096 : S4x256x32x128.ShapeCasts S4x256x4096
  bitsLt_bf16_f32 : FTy.bits .bf16 < FTy.bits .f32
  dot_S4x256x1024_S1024x4096_S4x256x4096_2_0_01_1_n_n_wf : DotDims.WF S4x256x1024 S1024x4096 S4x256x4096 [2] [0] [0, 1] [1] [] []
  dot_S4x256x32x128_S4x256x32x128_S4x32x256x256_3_3_1_1_02_02_wf : DotDims.WF S4x256x32x128 S4x256x32x128 S4x32x256x256 [3] [3] [1] [1] [0, 2] [0, 2]
  dot_S4x256x32x128_S4x32x256x256_S4x32x128x256_1_3_3_2_02_01_wf : DotDims.WF S4x256x32x128 S4x32x256x256 S4x32x128x256 [1] [3] [3] [2] [0, 2] [0, 1]
  dot_S4x256x4096_S4096x1024_S4x256x1024_2_0_01_1_n_n_wf : DotDims.WF S4x256x4096 S4096x1024 S4x256x1024 [2] [0] [0, 1] [1] [] []

variable [Facts₀]

def dot_S4x256x1024_S1024x4096_S4x256x4096_2_0_01_1_n_n : DotDims S4x256x1024 S1024x4096 S4x256x4096 where
  lhsContracting := [2]
  rhsContracting := [0]
  lhsNonContracting := [0, 1]
  rhsNonContracting := [1]
  lhsBatch := []
  rhsBatch := []
  wf := dot_S4x256x1024_S1024x4096_S4x256x4096_2_0_01_1_n_n_wf
def dot_S4x256x32x128_S4x256x32x128_S4x32x256x256_3_3_1_1_02_02 : DotDims S4x256x32x128 S4x256x32x128 S4x32x256x256 where
  lhsContracting := [3]
  rhsContracting := [3]
  lhsNonContracting := [1]
  rhsNonContracting := [1]
  lhsBatch := [0, 2]
  rhsBatch := [0, 2]
  wf := dot_S4x256x32x128_S4x256x32x128_S4x32x256x256_3_3_1_1_02_02_wf
def dot_S4x256x32x128_S4x32x256x256_S4x32x128x256_1_3_3_2_02_01 : DotDims S4x256x32x128 S4x32x256x256 S4x32x128x256 where
  lhsContracting := [1]
  rhsContracting := [3]
  lhsNonContracting := [3]
  rhsNonContracting := [2]
  lhsBatch := [0, 2]
  rhsBatch := [0, 1]
  wf := dot_S4x256x32x128_S4x32x256x256_S4x32x128x256_1_3_3_2_02_01_wf
def dot_S4x256x4096_S4096x1024_S4x256x1024_2_0_01_1_n_n : DotDims S4x256x4096 S4096x1024 S4x256x1024 where
  lhsContracting := [2]
  rhsContracting := [0]
  lhsNonContracting := [0, 1]
  rhsNonContracting := [1]
  lhsBatch := []
  rhsBatch := []
  wf := dot_S4x256x4096_S4096x1024_S4x256x1024_2_0_01_1_n_n_wf

class Facts : Prop extends Facts₀ where

variable [Facts]
-- ==== Proof.Proto.lean ====
import proofs.«900515_g7700000000000516_dist_attn_self_mha_htp_bs_b1_sq256_skv256_d1024_hq8_dh128_v7x_i4_bf16_1_alg».proof.Proof.Gen.KernelIdeal
import proofs.«900515_g7700000000000516_dist_attn_self_mha_htp_bs_b1_sq256_skv256_d1024_hq8_dh128_v7x_i4_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)

abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR
instance ER_landsIn : (ER : Emb UB (MT nD τ sig Unit (Elt F) ℕ UU ℕ)).LandsIn (upEmb : UEmb _ (MT nD τ sig Unit (Elt F) ℕ UU ℕ)) := by
  unfold ER; infer_instance

def sh (c : Dev nD) (e : ℕ) : Dev nD := ⟨(c.val + e) % 4, Nat.mod_lt _ (by decide)⟩

theorem sh_sh (c : Dev nD) (a b : ℕ) : sh (sh c a) b = sh c (a + b) := by
  apply Fin.ext; show ((c.val + a) % 4 + b) % 4 = (c.val + (a + b)) % 4; omega
theorem sh_zero (c : Dev nD) : sh c 0 = c := by
  apply Fin.ext; show (c.val + 0) % 4 = c.val; have := c.isLt; have h4 : nD = 4 := rfl; omega
theorem sh_four (c : Dev nD) : sh c 4 = c := by
  apply Fin.ext; show (c.val + 4) % 4 = c.val; have := c.isLt; have h4 : nD = 4 := rfl; omega

theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel
theorem dev4_eq (c : Dev nD) : (⟨k0_dev4 c, k0_dev4_lt c⟩ : Dev nD) = sh c 1 := by revert c; decide +kernel
theorem dev5_eq (c : Dev nD) : (⟨k0_dev5 c, k0_dev5_lt c⟩ : Dev nD) = sh c 3 := by revert c; decide +kernel
theorem dev6_eq (c : Dev nD) : (⟨k0_dev6 c, k0_dev6_lt c⟩ : Dev nD) = sh c 2 := by revert c; decide +kernel
theorem dev7_eq (c : Dev nD) : (⟨k0_dev7 c, k0_dev7_lt c⟩ : Dev nD) = sh c 3 := by revert c; decide +kernel
theorem dev8_eq (c : Dev nD) : (⟨k0_dev8 c, k0_dev8_lt c⟩ : Dev nD) = sh c 3 := by revert c; decide +kernel
theorem dev9_eq (c : Dev nD) : (⟨k0_dev9 c, k0_dev9_lt c⟩ : Dev nD) = sh c 1 := by revert c; decide +kernel
theorem dev10_eq (c : Dev nD) : (⟨k0_dev10 c, k0_dev10_lt c⟩ : Dev nD) = sh c 1 := by revert c; decide +kernel
theorem dev11_eq (c : Dev nD) : (⟨k0_dev11 c, k0_dev11_lt c⟩ : Dev nD) = sh c 2 := by revert c; decide +kernel
theorem dev12_eq (c : Dev nD) : (⟨k0_dev12 c, k0_dev12_lt c⟩ : Dev nD) = sh c 2 := by revert c; decide +kernel

abbrev M6 : Memref sig .tc .vmem S1x256x1024 .f32 := Memref.whole cc0_scratch0
abbrev M7 : Memref sig .tc .vmem S4x1024x1024 .f32 := Memref.whole cc0_scratch1
abbrev M8 : Memref sig .tc .vmem S256x1024 .bf16 := Memref.whole cc0_scratch2
abbrev M9 : Memref sig .tc .vmem S3x256x1024 .bf16 := Memref.whole cc0_scratch3
abbrev M10 : Memref sig .tc .vmem S3x2x128x1024 .bf16 := Memref.whole cc0_scratch4
abbrev M11 : Memref sig .tc .vmem S3x2x128x1024 .bf16 := Memref.whole cc0_scratch5
abbrev M12 : Memref sig .tc .vmem S1x256x1024 .bf16 := Memref.whole cc0_scratch6

abbrev barS : Sem sig := (SemArray.scalar (sig.barrier 0 rfl) : Sems sig S_).sem

abbrev ld0 : DmaSem sig := ((cc0_scratch7.slice (Rect.unit (s := S5) ![0] S1.size inb_S5_S1_0)).squeeze S_ squeezes_S1_S_).sem
abbrev ld1 : DmaSem sig := ((cc0_scratch7.slice (Rect.unit (s := S5) ![1] S1.size inb_S5_S1_1)).squeeze S_ squeezes_S1_S_).sem
abbrev ld2 : DmaSem sig := ((cc0_scratch7.slice (Rect.unit (s := S5) ![2] S1.size inb_S5_S1_2)).squeeze S_ squeezes_S1_S_).sem
abbrev ld3 : DmaSem sig := ((cc0_scratch7.slice (Rect.unit (s := S5) ![3] S1.size inb_S5_S1_3)).squeeze S_ squeezes_S1_S_).sem
abbrev ld4 : DmaSem sig := ((cc0_scratch7.slice (Rect.unit (s := S5) ![4] S1.size inb_S5_S1_4)).squeeze S_ squeezes_S1_S_).sem
abbrev agS0 : DmaSem sig := ((cc0_scratch8.slice (Rect.unit (s := S3) ![0] S1.size inb_S3_S1_0)).squeeze S_ squeezes_S1_S_).sem
abbrev agS1 : DmaSem sig := ((cc0_scratch8.slice (Rect.unit (s := S3) ![1] S1.size inb_S3_S1_1)).squeeze S_ squeezes_S1_S_).sem
abbrev agS2 : DmaSem sig := ((cc0_scratch8.slice (Rect.unit (s := S3) ![2] S1.size inb_S3_S1_2)).squeeze S_ squeezes_S1_S_).sem
abbrev agR0 : DmaSem sig := ((cc0_scratch9.slice (Rect.unit (s := S3) ![0] S1.size inb_S3_S1_0)).squeeze S_ squeezes_S1_S_).sem
abbrev agR1 : DmaSem sig := ((cc0_scratch9.slice (Rect.unit (s := S3) ![1] S1.size inb_S3_S1_1)).squeeze S_ squeezes_S1_S_).sem
abbrev agR2 : DmaSem sig := ((cc0_scratch9.slice (Rect.unit (s := S3) ![2] S1.size inb_S3_S1_2)).squeeze S_ squeezes_S1_S_).sem
abbrev rsS00s : DmaSem sig := ((cc0_scratch10.slice (Rect.unit (s := S3x2) ![0, 0] S1x1.size inb_S3x2_S1x1_0_0)).squeeze S_ squeezes_S1x1_S_).sem
abbrev rsS01s : DmaSem sig := ((cc0_scratch10.slice (Rect.unit (s := S3x2) ![0, 1] S1x1.size inb_S3x2_S1x1_0_1)).squeeze S_ squeezes_S1x1_S_).sem
abbrev rsS10s : DmaSem sig := ((cc0_scratch10.slice (Rect.unit (s := S3x2) ![1, 0] S1x1.size inb_S3x2_S1x1_1_0)).squeeze S_ squeezes_S1x1_S_).sem
abbrev rsS11s : DmaSem sig := ((cc0_scratch10.slice (Rect.unit (s := S3x2) ![1, 1] S1x1.size inb_S3x2_S1x1_1_1)).squeeze S_ squeezes_S1x1_S_).sem
abbrev rsS20s : DmaSem sig := ((cc0_scratch10.slice (Rect.unit (s := S3x2) ![2, 0] S1x1.size inb_S3x2_S1x1_2_0)).squeeze S_ squeezes_S1x1_S_).sem
abbrev rsS21s : DmaSem sig := ((cc0_scratch10.slice (Rect.unit (s := S3x2) ![2, 1] S1x1.size inb_S3x2_S1x1_2_1)).squeeze S_ squeezes_S1x1_S_).sem
abbrev rsR00s : DmaSem sig := ((cc0_scratch11.slice (Rect.unit (s := S3x2) ![0, 0] S1x1.size inb_S3x2_S1x1_0_0)).squeeze S_ squeezes_S1x1_S_).sem
abbrev rsR01s : DmaSem sig := ((cc0_scratch11.slice (Rect.unit (s := S3x2) ![0, 1] S1x1.size inb_S3x2_S1x1_0_1)).squeeze S_ squeezes_S1x1_S_).sem
abbrev rsR10s : DmaSem sig := ((cc0_scratch11.slice (Rect.unit (s := S3x2) ![1, 0] S1x1.size inb_S3x2_S1x1_1_0)).squeeze S_ squeezes_S1x1_S_).sem
abbrev rsR11s : DmaSem sig := ((cc0_scratch11.slice (Rect.unit (s := S3x2) ![1, 1] S1x1.size inb_S3x2_S1x1_1_1)).squeeze S_ squeezes_S1x1_S_).sem
abbrev rsR20s : DmaSem sig := ((cc0_scratch11.slice (Rect.unit (s := S3x2) ![2, 0] S1x1.size inb_S3x2_S1x1_2_0)).squeeze S_ squeezes_S1x1_S_).sem
abbrev rsR21s : DmaSem sig := ((cc0_scratch11.slice (Rect.unit (s := S3x2) ![2, 1] S1x1.size inb_S3x2_S1x1_2_1)).squeeze S_ squeezes_S1x1_S_).sem

abbrev barCell (c : Dev nD) : GSem nD τ sig := ((c : Thread nD τ), .reg barS)
abbrev dcell (c : Dev nD) (s : DmaSem sig) : GSem nD τ sig := ((c : Thread nD τ), .dma s)

abbrev xgS0 : Memref sig .tc .vmem S256x1024 .bf16 := (M9.slice (Rect.unit (s := S3x256x1024) ![0, 0, 0] S1x256x1024.size inb_S3x256x1024_S1x256x1024_0_0_0) (fun _ => rfl)).squeeze S256x1024 squeezes_S1x256x1024_S256x1024
abbrev xgS1 : Memref sig .tc .vmem S256x1024 .bf16 := (M9.slice (Rect.unit (s := S3x256x1024) ![1, 0, 0] S1x256x1024.size inb_S3x256x1024_S1x256x1024_1_0_0) (fun _ => rfl)).squeeze S256x1024 squeezes_S1x256x1024_S256x1024
abbrev xgS2 : Memref sig .tc .vmem S256x1024 .bf16 := (M9.slice (Rect.unit (s := S3x256x1024) ![2, 0, 0] S1x256x1024.size inb_S3x256x1024_S1x256x1024_2_0_0) (fun _ => rfl)).squeeze S256x1024 squeezes_S1x256x1024_S256x1024
abbrev rsS00 : Memref sig .tc .vmem S128x1024 .bf16 := (M10.slice (Rect.unit (s := S3x2x128x1024) ![0, 0, 0, 0] S1x1x128x1024.size inb_S3x2x128x1024_S1x1x128x1024_0_0_0_0) (fun _ => rfl)).squeeze S128x1024 squeezes_S1x1x128x1024_S128x1024
abbrev rsS01 : Memref sig .tc .vmem S128x1024 .bf16 := (M10.slice (Rect.unit (s := S3x2x128x1024) ![0, 1, 0, 0] S1x1x128x1024.size inb_S3x2x128x1024_S1x1x128x1024_0_1_0_0) (fun _ => rfl)).squeeze S128x1024 squeezes_S1x1x128x1024_S128x1024
abbrev rsS10 : Memref sig .tc .vmem S128x1024 .bf16 := (M10.slice (Rect.unit (s := S3x2x128x1024) ![1, 0, 0, 0] S1x1x128x1024.size inb_S3x2x128x1024_S1x1x128x1024_1_0_0_0) (fun _ => rfl)).squeeze S128x1024 squeezes_S1x1x128x1024_S128x1024
abbrev rsS11 : Memref sig .tc .vmem S128x1024 .bf16 := (M10.slice (Rect.unit (s := S3x2x128x1024) ![1, 1, 0, 0] S1x1x128x1024.size inb_S3x2x128x1024_S1x1x128x1024_1_1_0_0) (fun _ => rfl)).squeeze S128x1024 squeezes_S1x1x128x1024_S128x1024
abbrev rsS20 : Memref sig .tc .vmem S128x1024 .bf16 := (M10.slice (Rect.unit (s := S3x2x128x1024) ![2, 0, 0, 0] S1x1x128x1024.size inb_S3x2x128x1024_S1x1x128x1024_2_0_0_0) (fun _ => rfl)).squeeze S128x1024 squeezes_S1x1x128x1024_S128x1024
abbrev rsS21 : Memref sig .tc .vmem S128x1024 .bf16 := (M10.slice (Rect.unit (s := S3x2x128x1024) ![2, 1, 0, 0] S1x1x128x1024.size inb_S3x2x128x1024_S1x1x128x1024_2_1_0_0) (fun _ => rfl)).squeeze S128x1024 squeezes_S1x1x128x1024_S128x1024
abbrev rrS00 : Memref sig .tc .vmem S128x1024 .bf16 := (M11.slice (Rect.unit (s := S3x2x128x1024) ![0, 0, 0, 0] S1x1x128x1024.size inb_S3x2x128x1024_S1x1x128x1024_0_0_0_0) (fun _ => rfl)).squeeze S128x1024 squeezes_S1x1x128x1024_S128x1024
abbrev rrS01 : Memref sig .tc .vmem S128x1024 .bf16 := (M11.slice (Rect.unit (s := S3x2x128x1024) ![0, 1, 0, 0] S1x1x128x1024.size inb_S3x2x128x1024_S1x1x128x1024_0_1_0_0) (fun _ => rfl)).squeeze S128x1024 squeezes_S1x1x128x1024_S128x1024
abbrev rrS10 : Memref sig .tc .vmem S128x1024 .bf16 := (M11.slice (Rect.unit (s := S3x2x128x1024) ![1, 0, 0, 0] S1x1x128x1024.size inb_S3x2x128x1024_S1x1x128x1024_1_0_0_0) (fun _ => rfl)).squeeze S128x1024 squeezes_S1x1x128x1024_S128x1024
abbrev rrS11 : Memref sig .tc .vmem S128x1024 .bf16 := (M11.slice (Rect.unit (s := S3x2x128x1024) ![1, 1, 0, 0] S1x1x128x1024.size inb_S3x2x128x1024_S1x1x128x1024_1_1_0_0) (fun _ => rfl)).squeeze S128x1024 squeezes_S1x1x128x1024_S128x1024
abbrev rrS20 : Memref sig .tc .vmem S128x1024 .bf16 := (M11.slice (Rect.unit (s := S3x2x128x1024) ![2, 0, 0, 0] S1x1x128x1024.size inb_S3x2x128x1024_S1x1x128x1024_2_0_0_0) (fun _ => rfl)).squeeze S128x1024 squeezes_S1x1x128x1024_S128x1024
abbrev rrS21 : Memref sig .tc .vmem S128x1024 .bf16 := (M11.slice (Rect.unit (s := S3x2x128x1024) ![2, 1, 0, 0] S1x1x128x1024.size inb_S3x2x128x1024_S1x1x128x1024_2_1_0_0) (fun _ => rfl)).squeeze S128x1024 squeezes_S1x1x128x1024_S128x1024

variable (xbf : (c : Dev nD) → Buf (Elt F) ((c : Thread nD τ).loc cc0_scratch2))
  (xg : (c : Dev nD) → Buf (Elt F) ((c : Thread nD τ).loc cc0_scratch3))
  (rs : (c : Dev nD) → Buf (Elt F) ((c : Thread nD τ).loc cc0_scratch4))
  (rr : (c : Dev nD) → Buf (Elt F) ((c : Thread nD τ).loc cc0_scratch5))

abbrev qA : PosShare TreeShare := fullShare.left.left
abbrev qB : PosShare TreeShare := fullShare.left.right
abbrev qC : PosShare TreeShare := fullShare.right.left
abbrev qD : PosShare TreeShare := fullShare.right.right

abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

abbrev Nag : ℕ := (M8 : Memref sig .tc .vmem S256x1024 .bf16).view.dmaCredit
abbrev Nrs : ℕ := (rsS00 : Memref sig .tc .vmem S128x1024 .bf16).view.dmaCredit
theorem Nag_pos : 0 < Nag := View.dmaCredit_pos _ (by decide)
theorem Nrs_pos : 0 < Nrs := View.dmaCredit_pos _ (by decide)

def barPay (p : Dev nD) (d : ℕ) : sProp 𝕄 :=
  if d = 1 then iprop((∃ f, pts p xgS2 fullShare f) ∗ (∃ f, pts p rrS00 fullShare f) ∗ (∃ f, pts p rrS01 fullShare f))
  else if d = 2 then iprop((∃ f, pts p xgS1 fullShare f) ∗ (∃ f, pts p rrS10 fullShare f) ∗ (∃ f, pts p rrS11 fullShare f))
  else if d = 3 then iprop((∃ f, pts p xgS0 fullShare f) ∗ (∃ f, pts p rrS20 fullShare f) ∗ (∃ f, pts p rrS21 fullShare f))
  else iprop(emp)

def dmaPay (c : Dev nD) (k : ℕ) : sProp 𝕄 :=
  if k = 5 then pts c M8 qA (xbf c)
  else if k = 6 then pts c M8 qC (xbf c)
  else if k = 7 then pts c M8 qB (xbf c)
  else if k = 8 then pts c xgS0 fullShare (xg c)
  else if k = 9 then pts c xgS1 fullShare (xg c)
  else if k = 10 then pts c xgS2 fullShare (xg c)
  else if k = 11 then pts c rsS00 fullShare (rs c)
  else if k = 12 then pts c rsS01 fullShare (rs c)
  else if k = 13 then pts c rsS10 fullShare (rs c)
  else if k = 14 then pts c rsS11 fullShare (rs c)
  else if k = 15 then pts c rsS20 fullShare (rs c)
  else if k = 16 then pts c rsS21 fullShare (rs c)
  else if k = 17 then pts c rrS00 fullShare (rr c)
  else if k = 18 then pts c rrS01 fullShare (rr c)
  else if k = 19 then pts c rrS10 fullShare (rr c)
  else if k = 20 then pts c rrS11 fullShare (rr c)
  else if k = 21 then pts c rrS20 fullShare (rr c)
  else if k = 22 then pts c rrS21 fullShare (rr c)
  else iprop(emp)

def sched : Rounds.Schedule (GSem nD τ sig) (Fin 4) 𝕄 where
  duties g r :=
    if r = 0 ∧ g.1.2 = .tc then
      (match g.2 with
        | .reg s => if s = barS then {1, 2, 3} else ∅
        | .dma k => if 5 ≤ k.val then {0} else ∅)
    else ∅
  unitless _ := False
  amount g _ _ := match g.2 with
    | .reg _ => 1
    | .dma k => if k.val < 11 then Nag else Nrs
  payload g _ d := match g.2 with
    | .reg _ => barPay (sh g.1.1 (4 - d.val)) d.val
    | .dma k => dmaPay xbf xg rs rr g.1.1 k.val
  amount_pos g _ _ _ := by
    cases g.2 with
    | reg s => exact Nat.one_pos
    | dma k => dsimp only; split; exact Nag_pos; exact Nrs_pos

section Tables
variable (c : Dev nD)

omit [FloatOps F] in
theorem duties_bar : (sched xbf xg rs rr).duties (barCell c) 0 = {1, 2, 3} := by
  show (if (0 : ℕ) = 0 ∧ ((c : Thread nD τ).2 = .tc) then (if barS = barS then ({1, 2, 3} : Finset (Fin 4)) else ∅) else ∅) = _
  rw [if_pos ⟨rfl, rfl⟩, if_pos rfl]
omit [FloatOps F] in
theorem duties_dma (k : DmaSem sig) (hk : 5 ≤ k.val) : (sched xbf xg rs rr).duties (dcell c k) 0 = {0} := by
  show (if (0 : ℕ) = 0 ∧ ((c : Thread nD τ).2 = .tc) then (if 5 ≤ k.val then ({0} : Finset (Fin 4)) else ∅) else ∅) = _
  rw [if_pos ⟨rfl, rfl⟩, if_pos hk]
omit [FloatOps F] in
theorem duties_later (g : GSem nD τ sig) : ∀ r, 1 ≤ r → (sched xbf xg rs rr).duties g r = ∅ :=
  fun r hr => by dsimp only [sched]; rw [if_neg fun h => by omega]

omit [FloatOps F] in
theorem amount_bar (d : Fin 4) : (sched xbf xg rs rr).amount (barCell c) 0 d = 1 := rfl
omit [FloatOps F] in
theorem amount_ag (k : DmaSem sig) (hk : k.val < 11) (d : Fin 4) : (sched xbf xg rs rr).amount (dcell c k) 0 d = Nag := by
  show (if k.val < 11 then Nag else Nrs) = _; rw [if_pos hk]
omit [FloatOps F] in
theorem amount_rs (k : DmaSem sig) (hk : 11 ≤ k.val) (d : Fin 4) : (sched xbf xg rs rr).amount (dcell c k) 0 d = Nrs := by
  show (if k.val < 11 then Nag else Nrs) = _; rw [if_neg (by omega)]

omit [FloatOps F] in
theorem expect_bar : (sched xbf xg rs rr).expect (barCell c) 0 = 3 := by
  unfold Schedule.expect Schedule.amountOf
  rw [duties_bar, Finset.sum_congr rfl fun d _ => amount_bar xbf xg rs rr c d, Finset.sum_const, smul_eq_mul, Nat.mul_one]; rfl
omit [FloatOps F] in
theorem expect_ag (k : DmaSem sig) (h5 : 5 ≤ k.val) (hk : k.val < 11) : (sched xbf xg rs rr).expect (dcell c k) 0 = Nag := by
  unfold Schedule.expect Schedule.amountOf; rw [duties_dma xbf xg rs rr c k h5, Finset.sum_singleton, amount_ag xbf xg rs rr c k hk]
omit [FloatOps F] in
theorem expect_rs (k : DmaSem sig) (hk : 11 ≤ k.val) : (sched xbf xg rs rr).expect (dcell c k) 0 = Nrs := by
  unfold Schedule.expect Schedule.amountOf; rw [duties_dma xbf xg rs rr c k (by omega), Finset.sum_singleton, amount_rs xbf xg rs rr c k hk]

end Tables

attribute [sl_rounds] duties_bar amount_bar expect_bar sh_sh sh_four sh_zero

omit [FloatOps F]

@[sl_rounds] theorem payload_agS0 (c : Dev nD) (d : Fin 4) : (sched xbf xg rs rr).payload (dcell c agS0) 0 d = pts c M8 qA (xbf c) := rfl
@[sl_rounds] theorem payload_agS1 (c : Dev nD) (d : Fin 4) : (sched xbf xg rs rr).payload (dcell c agS1) 0 d = pts c M8 qC (xbf c) := rfl
@[sl_rounds] theorem payload_agS2 (c : Dev nD) (d : Fin 4) : (sched xbf xg rs rr).payload (dcell c agS2) 0 d = pts c M8 qB (xbf c) := rfl
@[sl_rounds] theorem payload_agR0 (c : Dev nD) (d : Fin 4) : (sched xbf xg rs rr).payload (dcell c agR0) 0 d = pts c xgS0 fullShare (xg c) := rfl
@[sl_rounds] theorem payload_agR1 (c : Dev nD) (d : Fin 4) : (sched xbf xg rs rr).payload (dcell c agR1) 0 d = pts c xgS1 fullShare (xg c) := rfl
@[sl_rounds] theorem payload_agR2 (c : Dev nD) (d : Fin 4) : (sched xbf xg rs rr).payload (dcell c agR2) 0 d = pts c xgS2 fullShare (xg c) := rfl
@[sl_rounds] theorem payload_rsS00s (c : Dev nD) (d : Fin 4) : (sched xbf xg rs rr).payload (dcell c rsS00s) 0 d = pts c rsS00 fullShare (rs c) := rfl
@[sl_rounds] theorem payload_rsS01s (c : Dev nD) (d : Fin 4) : (sched xbf xg rs rr).payload (dcell c rsS01s) 0 d = pts c rsS01 fullShare (rs c) := rfl
@[sl_rounds] theorem payload_rsS10s (c : Dev nD) (d : Fin 4) : (sched xbf xg rs rr).payload (dcell c rsS10s) 0 d = pts c rsS10 fullShare (rs c) := rfl
@[sl_rounds] theorem payload_rsS11s (c : Dev nD) (d : Fin 4) : (sched xbf xg rs rr).payload (dcell c rsS11s) 0 d = pts c rsS11 fullShare (rs c) := rfl
@[sl_rounds] theorem payload_rsS20s (c : Dev nD) (d : Fin 4) : (sched xbf xg rs rr).payload (dcell c rsS20s) 0 d = pts c rsS20 fullShare (rs c) := rfl
@[sl_rounds] theorem payload_rsS21s (c : Dev nD) (d : Fin 4) : (sched xbf xg rs rr).payload (dcell c rsS21s) 0 d = pts c rsS21 fullShare (rs c) := rfl
@[sl_rounds] theorem payload_rsR00s (c : Dev nD) (d : Fin 4) : (sched xbf xg rs rr).payload (dcell c rsR00s) 0 d = pts c rrS00 fullShare (rr c) := rfl
@[sl_rounds] theorem payload_rsR01s (c : Dev nD) (d : Fin 4) : (sched xbf xg rs rr).payload (dcell c rsR01s) 0 d = pts c rrS01 fullShare (rr c) := rfl
@[sl_rounds] theorem payload_rsR10s (c : Dev nD) (d : Fin 4) : (sched xbf xg rs rr).payload (dcell c rsR10s) 0 d = pts c rrS10 fullShare (rr c) := rfl
@[sl_rounds] theorem payload_rsR11s (c : Dev nD) (d : Fin 4) : (sched xbf xg rs rr).payload (dcell c rsR11s) 0 d = pts c rrS11 fullShare (rr c) := rfl
@[sl_rounds] theorem payload_rsR20s (c : Dev nD) (d : Fin 4) : (sched xbf xg rs rr).payload (dcell c rsR20s) 0 d = pts c rrS20 fullShare (rr c) := rfl
@[sl_rounds] theorem payload_rsR21s (c : Dev nD) (d : Fin 4) : (sched xbf xg rs rr).payload (dcell c rsR21s) 0 d = pts c rrS21 fullShare (rr c) := rfl

@[sl_rounds] theorem payload_bar1 (c : Dev nD) : (sched xbf xg rs rr).payload (barCell c) 0 1
    = iprop((∃ f, pts (sh c 3) xgS2 fullShare f) ∗ (∃ f, pts (sh c 3) rrS00 fullShare f) ∗ (∃ f, pts (sh c 3) rrS01 fullShare f)) := rfl
@[sl_rounds] theorem payload_bar2 (c : Dev nD) : (sched xbf xg rs rr).payload (barCell c) 0 2
    = iprop((∃ f, pts (sh c 2) xgS1 fullShare f) ∗ (∃ f, pts (sh c 2) rrS10 fullShare f) ∗ (∃ f, pts (sh c 2) rrS11 fullShare f)) := rfl
@[sl_rounds] theorem payload_bar3 (c : Dev nD) : (sched xbf xg rs rr).payload (barCell c) 0 3
    = iprop((∃ f, pts (sh c 1) xgS0 fullShare f) ∗ (∃ f, pts (sh c 1) rrS20 fullShare f) ∗ (∃ f, pts (sh c 1) rrS21 fullShare f)) := rfl

end Cert.KernelIdeal.Proto

end
-- ==== Proof.Chunk.lean ====
import proofs.«900515_g7700000000000516_dist_attn_self_mha_htp_bs_b1_sq256_skv256_d1024_hq8_dh128_v7x_i4_bf16_1_alg».proof.Proof.Gen.KernelIdeal

noncomputable section

namespace Cert.KernelIdeal.Chunk

open Idealize.ShloMosaic Idealize.SL.Sem
open Cert.KernelIdeal Cert.KernelIdeal.Gen

variable {F : FTy → Type} [FloatOps F]

def projKV (xb : FVec F S256x1024 .bf16) (w : FVec F S1024x1024 .bf16) : FVec F S256x1024 .bf16 :=
  have cst : FVec F S256x1024 .f32 := constant S256x1024 .f32 0x00000000#32
  have v155 : FVec F S256x1024 .f32 := matmul dot_S256x1024_S1024x1024_S256x1024_1_0_0_1_n_n none xb w cst
  have v156 : FVec F S256x1024 .bf16 := truncf .bf16 v155 bitsLt_bf16_f32
  v156

def headAt (off : Nat) (hq : S128x1024.Slices ![0, off] S128x128) (hk : S256x1024.Slices ![0, off] S256x128)
    (q : FVec F S128x1024 .bf16) (k v : FVec F S256x1024 .bf16) : FVec F S128x128 .bf16 :=
  have v163 : FVec F S128x128 .bf16 := extractStridedSlice S128x128 ![0, off] q hq
  have v164 : FVec F S256x128 .bf16 := extractStridedSlice S256x128 ![0, off] k hk
  have cst_123 : FVec F S128x256 .f32 := constant S128x256 .f32 0x00000000#32
  have v165 : FVec F S128x256 .f32 := matmul dot_S128x128_S256x128_S128x256_1_1_0_0_n_n none v163 v164 cst_123
  have cst_124 : F .f32 := Scalar.ofBits .f32 0x3DB504F3#32
  have v166 : FVec F S128x256 .f32 := broadcast S128x256 cst_124
  have v167 : FVec F S128x256 .f32 := mulf v165 v166
  have cst_125 : FVec F S128 .f32 := constant S128 .f32 0xFF800000#32
  have v168 : FVec F S128 .f32 := multiReduction .maximumf [1] S128 v167 0xFF800000#32 reduces_S128x256_S128 (.inl rfl) rfl
  have v169 : FVec F S128x1 .f32 := shapeCast S128x1 v168 shapeCasts_S128_S128x1
  have v170 : FVec F S128x256 .f32 := broadcastTo S128x256 v169 broadcasts_S128x1_S128x256
  have v171 : FVec F S128x256 .f32 := subf v167 v170
  have v172 : FVec F S128x256 .f32 := exp v171
  have cst_126 : FVec F S128 .f32 := constant S128 .f32 0x00000000#32
  have v173 : FVec F S128 .f32 := multiReduction .add [1] S128 v172 0x00000000#32 reduces_S128x256_S128 (.inl rfl) rfl
  have v174 : FVec F S128x1 .f32 := shapeCast S128x1 v173 shapeCasts_S128_S128x1
  have v175 : FVec F S128x256 .bf16 := truncf .bf16 v172 bitsLt_bf16_f32
  have v176 : FVec F S256x128 .bf16 := extractStridedSlice S256x128 ![0, off] v hk
  have cst_127 : FVec F S128x128 .f32 := constant S128x128 .f32 0x00000000#32
  have v177 : FVec F S128x128 .f32 := matmul dot_S128x256_S256x128_S128x128_1_0_0_1_n_n none v175 v176 cst_127
  have v178 : FVec F S128x128 .f32 := broadcastTo S128x128 v174 broadcasts_S128x1_S128x128
  have v179 : FVec F S128x128 .f32 := divf v177 v178
  have v180 : FVec F S128x128 .bf16 := truncf .bf16 v179 bitsLt_bf16_f32
  v180

theorem slices_q (hd : Fin 8) : S128x1024.Slices ![0, 128 * hd.val] S128x128 := by
  revert hd; decide

theorem slices_kv (hd : Fin 8) : S256x1024.Slices ![0, 128 * hd.val] S256x128 := by
  revert hd; decide

def head (q : FVec F S128x1024 .bf16) (k v : FVec F S256x1024 .bf16) (hd : Fin 8) : FVec F S128x128 .bf16 :=
  headAt (128 * hd.val) (slices_q hd) (slices_kv hd) q k v

def chunkAt (roff : Nat) (hx : S256x1024.Slices ![roff, 0] S128x1024)
    (xb : FVec F S256x1024 .bf16) (wq wo : FVec F S1024x1024 .bf16) (k v : FVec F S256x1024 .bf16) :
    FVec F S128x1024 .f32 :=
  have v160 : FVec F S128x1024 .bf16 := extractStridedSlice S128x1024 ![roff, 0] xb hx
  have cst_122 : FVec F S128x1024 .f32 := constant S128x1024 .f32 0x00000000#32
  have v161 : FVec F S128x1024 .f32 := matmul dot_S128x1024_S1024x1024_S128x1024_1_0_0_1_n_n none v160 wq cst_122
  have v162 : FVec F S128x1024 .bf16 := truncf .bf16 v161 bitsLt_bf16_f32
  have v180 : FVec F S128x128 .bf16 := headAt 0 slices_S128x1024_o0_0_S128x128 slices_S256x1024_o0_0_S256x128 v162 k v
  have v198 : FVec F S128x128 .bf16 := headAt 128 slices_S128x1024_o0_128_S128x128 slices_S256x1024_o0_128_S256x128 v162 k v
  have v216 : FVec F S128x128 .bf16 := headAt 256 slices_S128x1024_o0_256_S128x128 slices_S256x1024_o0_256_S256x128 v162 k v
  have v234 : FVec F S128x128 .bf16 := headAt 384 slices_S128x1024_o0_384_S128x128 slices_S256x1024_o0_384_S256x128 v162 k v
  have v252 : FVec F S128x128 .bf16 := headAt 512 slices_S128x1024_o0_512_S128x128 slices_S256x1024_o0_512_S256x128 v162 k v
  have v270 : FVec F S128x128 .bf16 := headAt 640 slices_S128x1024_o0_640_S128x128 slices_S256x1024_o0_640_S256x128 v162 k v
  have v288 : FVec F S128x128 .bf16 := headAt 768 slices_S128x1024_o0_768_S128x128 slices_S256x1024_o0_768_S256x128 v162 k v
  have v306 : FVec F S128x128 .bf16 := headAt 896 slices_S128x1024_o0_896_S128x128 slices_S256x1024_o0_896_S256x128 v162 k v
  have v307 : FVec F S128x1024 .bf16 := concatenate S128x1024 1 [⟨S128x128, v180⟩, ⟨S128x128, v198⟩, ⟨S128x128, v216⟩, ⟨S128x128, v234⟩, ⟨S128x128, v252⟩, ⟨S128x128, v270⟩, ⟨S128x128, v288⟩, ⟨S128x128, v306⟩] concatenates_S128x128_S128x128_S128x128_S128x128_S128x128_S128x128_S128x128_S128x128_S128x1024_d1
  have cst_163 : FVec F S128x1024 .f32 := constant S128x1024 .f32 0x00000000#32
  have v308 : FVec F S128x1024 .f32 := matmul dot_S128x1024_S1024x1024_S128x1024_1_0_0_1_n_n none v307 wo cst_163
  v308

def chunk0 (xb : FVec F S256x1024 .bf16) (wq wo : FVec F S1024x1024 .bf16) (k v : FVec F S256x1024 .bf16) :
    FVec F S128x1024 .f32 :=
  chunkAt 0 slices_S256x1024_o0_0_S128x1024 xb wq wo k v

def chunk1 (xb : FVec F S256x1024 .bf16) (wq wo : FVec F S1024x1024 .bf16) (k v : FVec F S256x1024 .bf16) :
    FVec F S128x1024 .f32 :=
  chunkAt 128 slices_S256x1024_o128_0_S128x1024 xb wq wo k v

end Cert.KernelIdeal.Chunk

end
-- ==== Proof.Contents.lean ====
import proofs.«900515_g7700000000000516_dist_attn_self_mha_htp_bs_b1_sq256_skv256_d1024_hq8_dh128_v7x_i4_bf16_1_alg».proof.Proof.Gen.KernelIdeal.Skeleton
import proofs.«900515_g7700000000000516_dist_attn_self_mha_htp_bs_b1_sq256_skv256_d1024_hq8_dh128_v7x_i4_bf16_1_alg».proof.Proof.Chunk

set_option maxRecDepth 65536

noncomputable section

namespace Cert.KernelIdeal.Contents

open Idealize.ShloMosaic Idealize.SL.Sem
open Cert.KernelIdeal Cert.KernelIdeal.Gen

variable {F : FTy → Type} [FloatOps F]

def xbfC (a0 : Vec F S1x256x1024 .f32) : FVec F S256x1024 .bf16 := k0_pay1 a0

def wC (a : Vec F S1x1024x1024 .f32) : FVec F S1024x1024 .bf16 := k0_pay2 a

def own0 (wq wk wv wo : FVec F S1024x1024 .bf16) (xb : Vec F S256x1024 .bf16) : FVec F S128x1024 .f32 :=
  have v156 : FVec F S256x1024 .bf16 := k0_pay6 wk xb
  have v158 : FVec F S256x1024 .bf16 := k0_pay7 wv xb
  have v162 : FVec F S128x1024 .bf16 := k0_pay8 wq xb
  have v180 : FVec F S128x128 .bf16 := k0_pay9 wq wk wv xb xb
  have v195 : FVec F S128x128 .f32 := k0_pay11 wq wk wv xb xb
  have v196 : FVec F S128x128 .f32 := k0_pay12 wq wk xb xb
  have v198 : FVec F S128x128 .bf16 := k0_pay13 v195 v196
  have v216 : FVec F S128x128 .bf16 := k0_pay14 v156 v158 v162
  have v234 : FVec F S128x128 .bf16 := k0_pay15 v156 v158 v162
  have v243 : FVec F S128x256 .f32 := k0_pay16 v156 v162
  have v252 : FVec F S128x128 .bf16 := k0_pay17 v158 v243
  have v270 : FVec F S128x128 .bf16 := k0_pay18 v156 v158 v162
  have v288 : FVec F S128x128 .bf16 := k0_pay19 v156 v158 v162
  have v289 : FVec F S128x128 .bf16 := k0_pay20 v162
  have v290 : FVec F S256x128 .bf16 := k0_pay21 v156
  have cst_158 : FVec F S128x256 .f32 := constant S128x256 .f32 0x00000000#32
  k0_pay22 wo v158 v180 v198 v216 v234 v252 v270 v288 v289 v290 cst_158

def own1 (wq wk wv wo : FVec F S1024x1024 .bf16) (xb : Vec F S256x1024 .bf16) : FVec F S128x1024 .f32 :=
  have v156 : FVec F S256x1024 .bf16 := k0_pay6 wk xb
  have v158 : FVec F S256x1024 .bf16 := k0_pay7 wv xb
  have v312 : FVec F S128x1024 .bf16 := k0_pay23 wq xb
  have v330 : FVec F S128x128 .bf16 := k0_pay24 wq v156 v158 xb
  have v335 : FVec F S128x256 .f32 := k0_pay25 wq v156 xb
  have v348 : FVec F S128x128 .bf16 := k0_pay26 v158 v335
  have v366 : FVec F S128x128 .bf16 := k0_pay27 v156 v158 v312
  have v381 : FVec F S128x128 .f32 := k0_pay29 v156 v158 v312
  have v382 : FVec F S128x128 .f32 := k0_pay30 v156 v312
  have v384 : FVec F S128x128 .bf16 := k0_pay31 v381 v382
  have v402 : FVec F S128x128 .bf16 := k0_pay32 v156 v158 v312
  have v420 : FVec F S128x128 .bf16 := k0_pay33 v156 v158 v312
  have v429 : FVec F S128x256 .f32 := k0_pay34 v156 v312
  k0_pay35 wo v156 v158 v312 v330 v348 v366 v384 v402 v420 v429

theorem own0_eq (wq wk wv wo : FVec F S1024x1024 .bf16) (xb : Vec F S256x1024 .bf16) :
    own0 wq wk wv wo xb = Chunk.chunk0 xb wq wo (Chunk.projKV xb wk) (Chunk.projKV xb wv) := rfl

theorem own1_eq (wq wk wv wo : FVec F S1024x1024 .bf16) (xb : Vec F S256x1024 .bf16) :
    own1 wq wk wv wo xb = Chunk.chunk1 xb wq wo (Chunk.projKV xb wk) (Chunk.projKV xb wv) := rfl

abbrev recv (xs : Vec F S1x256x1024 .bf16) : FVec F S256x1024 .bf16 :=
  shapeCast S256x1024 xs shapeCasts_S1x256x1024_S256x1024

def part00 (wq wk wv wo : FVec F S1024x1024 .bf16) (xs : Vec F S1x256x1024 .bf16) : FVec F S1x1x128x1024 .bf16 :=
  have v466 : FVec F S256x1024 .bf16 := k0_pay36 xs
  have v468 : FVec F S256x1024 .bf16 := k0_pay37 wk xs
  have cst_219 : FVec F S256x1024 .f32 := constant S256x1024 .f32 0x00000000#32
  have v470 : FVec F S256x1024 .bf16 := k0_pay38 wv v466 cst_219
  have v473 : FVec F S128x1024 .bf16 := k0_pay39 wq v466
  have v491 : FVec F S128x128 .bf16 := k0_pay40 wq wv v466 v468 cst_219
  have v509 : FVec F S128x128 .bf16 := k0_pay41 wq wv v466 v468 cst_219
  have v514 : FVec F S128x256 .f32 := k0_pay42 wq v466 v468
  have v527 : FVec F S128x128 .bf16 := k0_pay43 v470 v514
  have v545 : FVec F S128x128 .bf16 := k0_pay44 v468 v470 v473
  have v562 : FVec F S128x128 .f32 := k0_pay45 v468 v470 v473
  have v563 : FVec F S128x128 .bf16 := k0_pay46 v562
  have v581 : FVec F S128x128 .bf16 := k0_pay47 v468 v470 v473
  have v599 : FVec F S128x128 .bf16 := k0_pay48 v468 v470 v473
  have v609 : FVec F S128x256 .f32 := k0_pay49 v468 v473
  k0_pay50 wo v470 v491 v509 v527 v545 v563 v581 v599 v609

def part01 (wq wk wv wo : FVec F S1024x1024 .bf16) (xs : Vec F S1x256x1024 .bf16) : FVec F S1x1x128x1024 .bf16 :=
  have v466 : FVec F S256x1024 .bf16 := k0_pay36 xs
  have v468 : FVec F S256x1024 .bf16 := k0_pay37 wk xs
  have cst_219 : FVec F S256x1024 .f32 := constant S256x1024 .f32 0x00000000#32
  have v470 : FVec F S256x1024 .bf16 := k0_pay38 wv v466 cst_219
  have v648 : FVec F S128x1024 .bf16 := k0_pay51 wq v466
  have v666 : FVec F S128x128 .bf16 := k0_pay52 wq v466 v468 v470
  have v684 : FVec F S128x128 .bf16 := k0_pay53 wq v466 v468 v470
  have v685 : FVec F S128x128 .bf16 := k0_pay54 wq v466
  have v686 : FVec F S256x128 .bf16 := k0_pay55 v468
  have cst_299 : FVec F S128x256 .f32 := constant S128x256 .f32 0x00000000#32
  have v702 : FVec F S128x128 .bf16 := k0_pay56 v470 v685 v686 cst_299
  have v720 : FVec F S128x128 .bf16 := k0_pay57 v468 v470 v648
  have v732 : FVec F S128x1 .f32 := k0_pay59 v468 v648
  have v733 : FVec F S128x256 .bf16 := k0_pay60 v468 v648
  have v738 : FVec F S128x128 .bf16 := k0_pay61 v470 v732 v733
  have v756 : FVec F S128x128 .bf16 := k0_pay62 v468 v470 v648
  have v774 : FVec F S128x128 .bf16 := k0_pay63 v468 v470 v648
  have v779 : FVec F S128x256 .f32 := k0_pay64 v468 v648
  k0_pay65 wo v470 v666 v684 v702 v720 v738 v756 v774 v779

def part10 (wq wk wv wo : FVec F S1024x1024 .bf16) (xs : Vec F S1x256x1024 .bf16) : FVec F S1x1x128x1024 .bf16 :=
  have v1192 : FVec F S256x1024 .bf16 := k0_pay99 wk xs
  have v1194 : FVec F S256x1024 .bf16 := k0_pay100 wv xs
  have v1197 : FVec F S128x1024 .bf16 := k0_pay101 wq xs
  have v1215 : FVec F S128x128 .bf16 := k0_pay102 wq wk wv xs
  have v1230 : FVec F S128x128 .f32 := k0_pay104 wq wk wv xs
  have v1231 : FVec F S128x128 .f32 := k0_pay105 wq wk xs
  have v1233 : FVec F S128x128 .bf16 := k0_pay106 v1230 v1231
  have v1251 : FVec F S128x128 .bf16 := k0_pay107 v1192 v1194 v1197
  have v1269 : FVec F S128x128 .bf16 := k0_pay108 v1192 v1194 v1197
  have v1278 : FVec F S128x256 .f32 := k0_pay109 v1192 v1197
  have v1287 : FVec F S128x128 .bf16 := k0_pay110 v1194 v1278
  have v1305 : FVec F S128x128 .bf16 := k0_pay111 v1192 v1194 v1197
  have v1323 : FVec F S128x128 .bf16 := k0_pay112 v1192 v1194 v1197
  have v1324 : FVec F S128x128 .bf16 := k0_pay113 v1197
  have v1325 : FVec F S256x128 .bf16 := k0_pay114 v1192
  have cst_552 : FVec F S128x256 .f32 := constant S128x256 .f32 0x00000000#32
  k0_pay115 wo v1194 v1215 v1233 v1251 v1269 v1287 v1305 v1323 v1324 v1325 cst_552

def part11 (wq wk wv wo : FVec F S1024x1024 .bf16) (xs : Vec F S1x256x1024 .bf16) : FVec F S1x1x128x1024 .bf16 :=
  have v1190 : FVec F S256x1024 .bf16 := k0_pay98 xs
  have v1192 : FVec F S256x1024 .bf16 := k0_pay99 wk xs
  have v1194 : FVec F S256x1024 .bf16 := k0_pay100 wv xs
  have v1372 : FVec F S128x1024 .bf16 := k0_pay116 wq v1190
  have v1390 : FVec F S128x128 .bf16 := k0_pay117 wq v1190 v1192 v1194
  have v1400 : FVec F S128x256 .f32 := k0_pay118 wq v1190 v1192
  have v1402 : FVec F S128x1 .f32 := k0_pay119 wq v1190 v1192
  have v1408 : FVec F S128x128 .bf16 := k0_pay120 v1194 v1400 v1402
  have v1426 : FVec F S128x128 .bf16 := k0_pay121 v1192 v1194 v1372
  have v1444 : FVec F S128x128 .bf16 := k0_pay122 v1192 v1194 v1372
  have v1449 : FVec F S128x256 .f32 := k0_pay123 v1192 v1372
  have v1462 : FVec F S128x128 .bf16 := k0_pay124 v1194 v1449
  have v1480 : FVec F S128x128 .bf16 := k0_pay125 v1192 v1194 v1372
  have v1495 : FVec F S128x128 .f32 := k0_pay127 v1192 v1194 v1372
  have v1496 : FVec F S128x128 .f32 := k0_pay128 v1192 v1372
  k0_pay129 wo v1192 v1194 v1372 v1390 v1408 v1426 v1444 v1462 v1480 v1495 v1496

def part20 (wq wk wv wo : FVec F S1024x1024 .bf16) (xs : Vec F S1x256x1024 .bf16) : FVec F S1x1x128x1024 .bf16 :=
  have v830 : FVec F S256x1024 .bf16 := k0_pay67 wk xs
  have v832 : FVec F S256x1024 .bf16 := k0_pay68 wv xs
  have v835 : FVec F S128x1024 .bf16 := k0_pay69 wq xs
  have v847 : FVec F S128x1 .f32 := k0_pay71 wq wk xs
  have v848 : FVec F S128x256 .bf16 := k0_pay72 wq wk xs
  have v849 : FVec F S256x128 .bf16 := k0_pay73 wv xs
  have cst_373 : FVec F S128x128 .f32 := constant S128x128 .f32 0x00000000#32
  have v853 : FVec F S128x128 .bf16 := k0_pay74 v847 v848 v849 cst_373
  have v871 : FVec F S128x128 .bf16 := k0_pay75 v830 v832 v835
  have v889 : FVec F S128x128 .bf16 := k0_pay76 v830 v832 v835
  have v894 : FVec F S128x256 .f32 := k0_pay77 v830 v835
  have v896 : FVec F S128x1 .f32 := k0_pay78 v830 v835
  have v907 : FVec F S128x128 .bf16 := k0_pay79 v832 v894 v896
  have v925 : FVec F S128x128 .bf16 := k0_pay80 v830 v832 v835
  have v943 : FVec F S128x128 .bf16 := k0_pay81 v830 v832 v835
  have v944 : FVec F S128x128 .bf16 := k0_pay82 v835
  k0_pay83 wo v830 v832 v835 v853 v871 v889 v907 v925 v943 v944

def part21 (wq wk wv wo : FVec F S1024x1024 .bf16) (xs : Vec F S1x256x1024 .bf16) : FVec F S1x1x128x1024 .bf16 :=
  have v828 : FVec F S256x1024 .bf16 := k0_pay66 xs
  have v830 : FVec F S256x1024 .bf16 := k0_pay67 wk xs
  have v832 : FVec F S256x1024 .bf16 := k0_pay68 wv xs
  have v1010 : FVec F S128x1024 .bf16 := k0_pay84 wq v828
  have v1020 : FVec F S128x256 .f32 := k0_pay85 wq v828 v830
  have v1028 : FVec F S128x128 .bf16 := k0_pay86 v832 v1020
  have v1046 : FVec F S128x128 .bf16 := k0_pay87 v830 v832 v1010
  have v1064 : FVec F S128x128 .bf16 := k0_pay88 v830 v832 v1010
  have v1067 : FVec F S128x256 .f32 := k0_pay89 v830 v1010
  have cst_453 : F .f32 := Scalar.ofBits .f32 0x3DB504F3#32
  have v1082 : FVec F S128x128 .bf16 := k0_pay90 v832 v1067 cst_453
  have v1100 : FVec F S128x128 .bf16 := k0_pay91 v830 v832 v1010
  have v1112 : FVec F S128x1 .f32 := k0_pay93 v830 v1010
  have v1113 : FVec F S128x256 .bf16 := k0_pay94 v830 v1010
  have v1114 : FVec F S256x128 .bf16 := k0_pay95 v832
  have cst_466 : FVec F S128x128 .f32 := constant S128x128 .f32 0x00000000#32
  have v1157 : FVec F S128x1024 .bf16 := k0_pay96 wo v830 v832 v1010 v1028 v1046 v1064 v1082 v1100 v1112 v1113 v1114 cst_466
  k0_pay97 v1157

def part (i : Fin 3) (h : Fin 2) (wq wk wv wo : FVec F S1024x1024 .bf16) (xs : Vec F S1x256x1024 .bf16) : FVec F S1x1x128x1024 .bf16 :=
  match i, h with
  | ⟨0, _⟩, ⟨0, _⟩ => part00 wq wk wv wo xs
  | ⟨0, _⟩, ⟨1, _⟩ => part01 wq wk wv wo xs
  | ⟨1, _⟩, ⟨0, _⟩ => part10 wq wk wv wo xs
  | ⟨1, _⟩, ⟨1, _⟩ => part11 wq wk wv wo xs
  | ⟨2, _⟩, ⟨0, _⟩ => part20 wq wk wv wo xs
  | ⟨2, _⟩, ⟨1, _⟩ => part21 wq wk wv wo xs

theorem part_zero (i : Fin 3) (wq wk wv wo : FVec F S1024x1024 .bf16) (xs : Vec F S1x256x1024 .bf16) :
    part i 0 wq wk wv wo xs
      = shapeCast S1x1x128x1024 (truncf .bf16 (Chunk.chunk0 (recv xs) wq wo (Chunk.projKV (recv xs) wk) (Chunk.projKV (recv xs) wv)) bitsLt_bf16_f32) shapeCasts_S128x1024_S1x1x128x1024 :=
  match i with
  | ⟨0, _⟩ => rfl
  | ⟨1, _⟩ => rfl
  | ⟨2, _⟩ => rfl

theorem part_one (i : Fin 3) (wq wk wv wo : FVec F S1024x1024 .bf16) (xs : Vec F S1x256x1024 .bf16) :
    part i 1 wq wk wv wo xs
      = shapeCast S1x1x128x1024 (truncf .bf16 (Chunk.chunk1 (recv xs) wq wo (Chunk.projKV (recv xs) wk) (Chunk.projKV (recv xs) wv)) bitsLt_bf16_f32) shapeCasts_S128x1024_S1x1x128x1024 :=
  match i with
  | ⟨0, _⟩ => rfl
  | ⟨1, _⟩ => rfl
  | ⟨2, _⟩ => rfl

abbrev widen (r : Vec F S1x1x128x1024 .bf16) : FVec F S128x1024 .f32 :=
  extf .f32 (shapeCast S128x1024 r shapeCasts_S1x1x128x1024_S128x1024) bitsLt_bf16_f32

def out0 (o0 : FVec F S128x1024 .f32) (r00 r20 r10 : Vec F S1x1x128x1024 .bf16) : FVec F S1x128x1024 .bf16 :=
  have v1556 : FVec F S128x1024 .f32 := k0_pay130 o0 r00
  have v1580 : FVec F S128x1024 .f32 := k0_pay132 v1556 r20
  have v1604 : FVec F S128x1024 .f32 := k0_pay134 v1580 r10
  k0_pay135 v1604

def out1 (o1 : FVec F S128x1024 .f32) (r01 r21 r11 : Vec F S1x1x128x1024 .bf16) : FVec F S1x128x1024 .bf16 :=
  have v1568 : FVec F S128x1024 .f32 := k0_pay131 o1 r01
  have v1592 : FVec F S128x1024 .f32 := k0_pay133 v1568 r21
  k0_pay136 v1592 r11

theorem out0_eq (o0 : FVec F S128x1024 .f32) (r00 r20 r10 : Vec F S1x1x128x1024 .bf16) :
    out0 o0 r00 r20 r10
      = shapeCast S1x128x1024 (truncf .bf16 (addf (addf (addf o0 (widen r00)) (widen r20)) (widen r10)) bitsLt_bf16_f32)
          shapeCasts_S128x1024_S1x128x1024 := rfl

theorem out1_eq (o1 : FVec F S128x1024 .f32) (r01 r21 r11 : Vec F S1x1x128x1024 .bf16) :
    out1 o1 r01 r21 r11
      = shapeCast S1x128x1024 (truncf .bf16 (addf (addf (addf o1 (widen r01)) (widen r21)) (widen r11)) bitsLt_bf16_f32)
          shapeCasts_S128x1024_S1x128x1024 := rfl

end Cert.KernelIdeal.Contents

end
-- ==== Proof.Final.lean ====
import proofs.«900515_g7700000000000516_dist_attn_self_mha_htp_bs_b1_sq256_skv256_d1024_hq8_dh128_v7x_i4_bf16_1_alg».proof.Proof.Proto
import proofs.«900515_g7700000000000516_dist_attn_self_mha_htp_bs_b1_sq256_skv256_d1024_hq8_dh128_v7x_i4_bf16_1_alg».proof.Proof.Contents
import Idealize.ShloMosaic.Lib.ValueIdx

noncomputable section

namespace Cert.KernelIdeal.Final

open Cert.KernelIdeal Cert.KernelIdeal.Gen Cert.KernelIdeal.Proto Cert.KernelIdeal.Contents
open Idealize.ShloMosaic Idealize.ShloMosaic.TcCoe Idealize.ShloMosaic.ValueIdx Idealize.SL.Sem

variable {F : FTy → Type} [FloatOps F]

variable (m : (ℓ : Loc nD τ sig) → Buf (Elt F) ℓ)

def slab (a : Vec F S1024x1024 .f32) : Vec F S1x1024x1024 .f32 := fun i => a (ix2 (i 1) (i 2))

def xbfOf (c : Dev nD) : FVec F S256x1024 .bf16 := xbfC (m ((c : Thread nD τ).loc main_arg0))
def wqOf (c : Dev nD) : FVec F S1024x1024 .bf16 := wC (slab (m ((c : Thread nD τ).loc main_arg1)))
def wkOf (c : Dev nD) : FVec F S1024x1024 .bf16 := wC (slab (m ((c : Thread nD τ).loc main_arg3)))
def wvOf (c : Dev nD) : FVec F S1024x1024 .bf16 := wC (slab (m ((c : Thread nD τ).loc main_arg4)))
def woOf (c : Dev nD) : FVec F S1024x1024 .bf16 := wC (slab (m ((c : Thread nD τ).loc main_arg2)))

def xgOf (c : Dev nD) : Buf (Elt F) ((c : Thread nD τ).loc cc0_scratch3) :=
  fun j => xbfOf m (sh c (3 - (j 0).val)) (ix2 (j 1) (j 2))

def slotOf (g : Vec F S3x256x1024 .bf16) (i : Fin 3) : Vec F S1x256x1024 .bf16 := fun j => g (ix3 i (j 1) (j 2))

def rsOf (c : Dev nD) : Buf (Elt F) ((c : Thread nD τ).loc cc0_scratch4) :=
  fun j => part ⟨(j 0).val, (j 0).isLt⟩ ⟨(j 1).val, (j 1).isLt⟩ (wqOf m c) (wkOf m c) (wvOf m c) (woOf m c)
    (slotOf (xgOf m c) ⟨(j 0).val, (j 0).isLt⟩) (ix4 0 0 (j 2) (j 3))

def rrOf (c : Dev nD) : Buf (Elt F) ((c : Thread nD τ).loc cc0_scratch5) :=
  fun j => rsOf m (sh c ((j 0).val + 1)) j

def slot4Of (g : Vec F S3x2x128x1024 .bf16) (i : Fin 3) (h : Fin 2) : Vec F S1x1x128x1024 .bf16 :=
  fun j => g (ix4 i h (j 2) (j 3))

def outOf (c : Dev nD) : Buf (Elt F) ((c : Thread nD τ).loc main_v1) :=
  fun j =>
    if h : (j 1).val < 128 then
      out0 (own0 (wqOf m c) (wkOf m c) (wvOf m c) (woOf m c) (xbfOf m c))
        (slot4Of (rrOf m c) 0 0) (slot4Of (rrOf m c) 2 0) (slot4Of (rrOf m c) 1 0) (ix3 0 ⟨(j 1).val, h⟩ (j 2))
    else
      out1 (own1 (wqOf m c) (wkOf m c) (wvOf m c) (woOf m c) (xbfOf m c))
        (slot4Of (rrOf m c) 0 1) (slot4Of (rrOf m c) 2 1) (slot4Of (rrOf m c) 1 1)
        (ix3 0 ⟨(j 1).val - 128, by have h1 : (j 1).val < 256 := (j 1).isLt; omega⟩ (j 2))

end Cert.KernelIdeal.Final

end
-- ==== Proof.ChunkOps.lean ====
import proofs.«900515_g7700000000000516_dist_attn_self_mha_htp_bs_b1_sq256_skv256_d1024_hq8_dh128_v7x_i4_bf16_1_alg».proof.Proof.Gen.KernelIdeal
import Idealize.ShloMosaic.PureOps.Ideal.Laws
import Idealize.ShloMosaic.Lib.ValueLayout
import Idealize.ShloMosaic.Lib.Pipeline.Value

noncomputable section

open scoped BigOperators

namespace Cert.ChunkOps

open Idealize.ShloMosaic Idealize.ShloMosaic.ValueIdx Idealize.SL.Sem
open Cert.KernelIdeal Cert.KernelIdeal.Gen

/-- A product contracting one axis, into the zero accumulator, is the sum over that axis of the operands' products. -/
theorem matmul_at {sl sr so : Shape} {φ₁ φ₂ : FTy} (D : DotDims sl sr so) (K : ℕ) (hr : D.contr.rank = 1)
    (hs : D.contr.size ⟨0, by omega⟩ = K) (x : FVec Ideal sl φ₁) (w : FVec Ideal sr φ₂) (j : so.Idx)
    (L : Fin K → sl.Idx) (R : Fin K → sr.Idx)
    (hl : ∀ q, D.lhsIdx j q = L (contrEquiv1 D K hr hs q)) (hR : ∀ q, D.rhsIdx j q = R (contrEquiv1 D K hr hs q)) :
    matmul D none x w (constant so .f32 0x00000000#32) j = ∑ k, x (L k) * w (R k) := by
  refine (Ideal.matmul_constant_zero_apply D none x w j).trans ?_
  rw [← Equiv.sum_comp (contrEquiv1 D K hr hs)]
  exact Finset.sum_congr rfl fun q _ => by rw [hl, hR]

theorem ofBits_neg_inf : Ideal.ofBits .f32 0xFF800000#32 = (⊥ : EReal) := by
  simp [Ideal.ofBits, Ideal.ieee]

theorem rowMax_apply (s : FVec Ideal S128x256 .f32) (r : Fin 128) :
    multiReduction .maximumf [1] S128 s 0xFF800000#32 reduces_S128x256_S128 (.inl rfl) rfl (ix1 r)
      = (Finset.univ : Finset (Fin 256)).fold max ⊥ (fun j => s (ix2 r j)) := by
  refine (Ideal.multiReduction_maximumf_single s _ reduces_S128x256_S128 (.inl rfl) rfl (ix1 r)).trans ?_
  show (Finset.univ : Finset (Fin 256)).fold max (Ideal.ofBits .f32 0xFF800000#32) _ = _
  rw [ofBits_neg_inf]
  exact congrArg (Finset.univ.fold max ⊥) (funext fun j => congrArg s (eq_ix2 _))

theorem rowSum_apply (s : FVec Ideal S128x256 .f32) (r : Fin 128) :
    multiReduction .add [1] S128 s 0x00000000#32 reduces_S128x256_S128 (.inl rfl) rfl (ix1 r)
      = ∑ j : Fin 256, s (ix2 r j) :=
  (Ideal.multiReduction_add_single s _ reduces_S128x256_S128 (.inl rfl) rfl (ix1 r)).trans
    (Finset.sum_congr rfl fun j _ => congrArg s (eq_ix2 _))

/-- A vector of row values, made a column and spread along the rows, reads the row's value. -/
theorem col_apply {α : Type} {b : ℕ} (x : S128.Idx → α) (h : S128x1.Broadcasts ⟨2, ![128, b]⟩) (p : Fin 128) (c : Fin b) :
    broadcastTo ⟨2, ![128, b]⟩ (shapeCast S128x1 x shapeCasts_S128_S128x1) h (ix2 p c) = x (ix1 p) :=
  (broadcastTo_apply _ h (ix2 p c) (ix2 p 0) fun a => match a with | ⟨0, _⟩ => rfl | ⟨1, _⟩ => rfl).trans
    (shapeCast_apply x _ _ _ (by rw [Shape.rowMajor_val_two, Shape.rowMajor_val_one]; exact (Nat.mul_one _).symm))

end Cert.ChunkOps

end
-- ==== Proof.Spec.lean ====
import Idealize.ShloMosaic.PureOps.Ideal

noncomputable section

open scoped BigOperators

namespace Cert.Spec

open Idealize.ShloMosaic

abbrev scale : EReal := Ideal.ofBits .f32 0x3DB504F3#32

abbrev Rows : Type := Fin 256 → Fin 1024 → EReal
abbrev Wts : Type := Fin 1024 → Fin 1024 → EReal

def hcol (hd : Fin 8) (e : Fin 128) : Fin 1024 := ⟨hd.val * 128 + e.val, by omega⟩

def proj (x : Rows) (w : Wts) : Rows := fun r n => ∑ k : Fin 1024, x r k * w k n

def score (q k : Rows) (hd : Fin 8) (r j : Fin 256) : EReal :=
  (∑ e : Fin 128, q r (hcol hd e) * k j (hcol hd e)) * scale

def rowMax (s : Fin 256 → EReal) : EReal := (Finset.univ : Finset (Fin 256)).fold max ⊥ s

def prob (q k : Rows) (hd : Fin 8) (r j : Fin 256) : EReal :=
  Ideal.exp (score q k hd r j - rowMax (score q k hd r))

def headOut (q k v : Rows) (hd : Fin 8) (r : Fin 256) (e : Fin 128) : EReal :=
  Ideal.div (∑ j : Fin 256, prob q k hd r j * v j (hcol hd e)) (∑ j : Fin 256, prob q k hd r j)

def headCat (q k v : Rows) : Rows := fun r n =>
  headOut q k v ⟨n.val / 128, by omega⟩ r ⟨n.val % 128, Nat.mod_lt _ (by decide)⟩

def partialOut (x : Rows) (wq wk wv wo : Wts) : Rows := fun r n =>
  ∑ c : Fin 1024, headCat (proj x wq) (proj x wk) (proj x wv) r c * wo c n

end Cert.Spec

end
-- ==== Proof.ChunkValue.lean ====
import proofs.«900515_g7700000000000516_dist_attn_self_mha_htp_bs_b1_sq256_skv256_d1024_hq8_dh128_v7x_i4_bf16_1_alg».proof.Proof.Chunk
import proofs.«900515_g7700000000000516_dist_attn_self_mha_htp_bs_b1_sq256_skv256_d1024_hq8_dh128_v7x_i4_bf16_1_alg».proof.Proof.ChunkOps
import proofs.«900515_g7700000000000516_dist_attn_self_mha_htp_bs_b1_sq256_skv256_d1024_hq8_dh128_v7x_i4_bf16_1_alg».proof.Proof.Spec

noncomputable section

open scoped BigOperators

namespace Cert.ChunkValue

open Idealize.ShloMosaic Idealize.ShloMosaic.ValueIdx Idealize.SL.Sem
open Cert.KernelIdeal Cert.KernelIdeal.Gen Cert.ChunkOps Cert.Spec

def rowsOf (xb : FVec Ideal S256x1024 .bf16) : Rows := fun r k => xb (ix2 r k)

def wtsOf (w : FVec Ideal S1024x1024 .bf16) : Wts := fun k n => w (ix2 k n)

section Head
variable (qh : FVec Ideal S128x128 .bf16) (kh vh : FVec Ideal S256x128 .bf16) (s : FVec Ideal S128x256 .f32)
  (r : Fin 128) (j : Fin 256) (e : Fin 128)

def scoreV : FVec Ideal S128x256 .f32 :=
  mulf (matmul dot_S128x128_S256x128_S128x256_1_1_0_0_n_n none qh kh (constant S128x256 .f32 0x00000000#32))
    (broadcast S128x256 (Scalar.ofBits .f32 0x3DB504F3#32))

def probV : FVec Ideal S128x256 .f32 :=
  exp (subf s (broadcastTo S128x256
    (shapeCast S128x1 (multiReduction .maximumf [1] S128 s 0xFF800000#32 reduces_S128x256_S128 (.inl rfl) rfl) shapeCasts_S128_S128x1)
    broadcasts_S128x1_S128x256))

def outV : FVec Ideal S128x128 .bf16 :=
  truncf .bf16 (divf
    (matmul dot_S128x256_S256x128_S128x128_1_0_0_1_n_n none (truncf .bf16 s bitsLt_bf16_f32) vh (constant S128x128 .f32 0x00000000#32))
    (broadcastTo S128x128
      (shapeCast S128x1 (multiReduction .add [1] S128 s 0x00000000#32 reduces_S128x256_S128 (.inl rfl) rfl) shapeCasts_S128_S128x1)
      broadcasts_S128x1_S128x128)) bitsLt_bf16_f32

theorem scoreV_apply : scoreV qh kh (ix2 r j) = (∑ e : Fin 128, qh (ix2 r e) * kh (ix2 j e)) * scale :=
  congrArg (· * scale)
    (matmul_at _ 128 rfl rfl qh kh _ (fun e => ix2 r e) (fun e => ix2 j e) (fun _ => eq_ix2 _) (fun _ => eq_ix2 _))

theorem probV_apply :
    probV s (ix2 r j) = Ideal.exp (s (ix2 r j) - (Finset.univ : Finset (Fin 256)).fold max ⊥ (fun j => s (ix2 r j))) := by
  unfold probV
  show Ideal.exp (s (ix2 r j) - broadcastTo S128x256 _ broadcasts_S128x1_S128x256 (ix2 r j)) = _
  rw [col_apply, rowMax_apply]

theorem outV_apply :
    outV vh s (ix2 r e) = Ideal.div (∑ j : Fin 256, s (ix2 r j) * vh (ix2 j e)) (∑ j : Fin 256, s (ix2 r j)) := by
  unfold outV
  show Ideal.div (matmul _ none (truncf .bf16 s bitsLt_bf16_f32) vh _ (ix2 r e)) (broadcastTo S128x128 _ broadcasts_S128x1_S128x128 (ix2 r e)) = _
  rw [matmul_at _ 256 rfl rfl _ vh _ (fun j => ix2 r j) (fun j => ix2 j e) (fun _ => eq_ix2 _) (fun _ => eq_ix2 _), col_apply, rowSum_apply]
  rfl

/-- One head, from operands that read that head's columns of the three projections. -/
theorem headV_apply (Q K V : Rows) (hd : Fin 8) (R : Fin 256) (hQ : ∀ e, qh (ix2 r e) = Q R (hcol hd e))
    (hK : ∀ j e, kh (ix2 j e) = K j (hcol hd e)) (hV : ∀ j e, vh (ix2 j e) = V j (hcol hd e)) :
    outV vh (probV (scoreV qh kh)) (ix2 r e) = headOut Q K V hd R e := by
  have hs : ∀ j, scoreV qh kh (ix2 r j) = score Q K hd R j := fun j => by
    rw [scoreV_apply]; simp only [hQ, hK]; rfl
  have hp : ∀ j, probV (scoreV qh kh) (ix2 r j) = prob Q K hd R j := fun j => by
    rw [probV_apply]; simp only [hs]; rfl
  rw [outV_apply]; simp only [hp, hV]; rfl

end Head

variable (xb : FVec Ideal S256x1024 .bf16) (wq wk wv wo : FVec Ideal S1024x1024 .bf16) (r : Fin 128) (n : Fin 1024)

theorem projKV_apply (r : Fin 256) : Chunk.projKV xb wq (ix2 r n) = proj (rowsOf xb) (wtsOf wq) r n :=
  matmul_at _ 1024 rfl rfl xb wq _ (fun k => ix2 r k) (fun k => ix2 k n) (fun _ => eq_ix2 _) (fun _ => eq_ix2 _)

section At
variable (roff : Nat) (hx : S256x1024.Slices ![roff, 0] S128x1024) (hR : roff + r.val < 256)

theorem projQ_apply :
    truncf .bf16 (matmul dot_S128x1024_S1024x1024_S128x1024_1_0_0_1_n_n none (extractStridedSlice S128x1024 ![roff, 0] xb hx) wq
      (constant S128x1024 .f32 0x00000000#32)) bitsLt_bf16_f32 (ix2 r n) = proj (rowsOf xb) (wtsOf wq) ⟨roff + r.val, hR⟩ n :=
  (matmul_at _ 1024 rfl rfl _ wq _ (fun k => ix2 r k) (fun k => ix2 k n) (fun _ => eq_ix2 _) (fun _ => eq_ix2 _)).trans
    (Finset.sum_congr rfl fun k _ => congrArg (· * _) (slice2_axis0_eq roff xb hx r k))

theorem chunkAt_apply :
    Chunk.chunkAt roff hx xb wq wo (Chunk.projKV xb wk) (Chunk.projKV xb wv) (ix2 r n)
      = partialOut (rowsOf xb) (wtsOf wq) (wtsOf wk) (wtsOf wv) (wtsOf wo) ⟨roff + r.val, hR⟩ n := by
  unfold Chunk.chunkAt
  refine (matmul_at _ 1024 rfl rfl _ wo _ (fun k => ix2 r k) (fun k => ix2 k n) (fun _ => eq_ix2 _) (fun _ => eq_ix2 _)).trans
    (Finset.sum_congr rfl fun c _ => congrArg₂ (· * ·) ?_ rfl)
  have hc : ∀ e : Fin 128, (hcol ⟨c.val / 128, by omega⟩ e).val = 128 * (c.val / 128) + e.val := fun e =>
    congrArg (· + e.val) (Nat.mul_comm _ _)
  refine (concatenate_ofFn_apply (t := S128x1024) 1 (fun hd => Chunk.head _ (Chunk.projKV xb wk) (Chunk.projKV xb wv) hd) _ rfl 128
    rfl (ix2 r c) ⟨c.val / 128, by omega⟩ rfl (ix2 r ⟨c.val % 128, Nat.mod_lt _ (by decide)⟩) rfl fun b hb => match b with
      | ⟨0, _⟩ => rfl
      | ⟨1, _⟩ => absurd rfl hb).trans ?_
  exact headV_apply _ _ _ r _ _ _ _ _ ⟨roff + r.val, hR⟩
    (fun e => (slice2_axis1_apply _ _ _ r e _ (hc e)).trans (projQ_apply xb wq r _ roff hx hR))
    (fun j e => (slice2_axis1_apply _ _ _ j e _ (hc e)).trans (projKV_apply xb wk _ j))
    (fun j e => (slice2_axis1_apply _ _ _ j e _ (hc e)).trans (projKV_apply xb wv _ j))

end At

theorem chunk0_apply :
    Chunk.chunk0 xb wq wo (Chunk.projKV xb wk) (Chunk.projKV xb wv) (ix2 r n)
      = partialOut (rowsOf xb) (wtsOf wq) (wtsOf wk) (wtsOf wv) (wtsOf wo) ⟨r.val, by omega⟩ n :=
  (chunkAt_apply xb wq wk wv wo r n 0 _ (by omega)).trans
    (congrArg (partialOut _ _ _ _ _ · n) (Fin.ext (Nat.zero_add r.val)))

theorem chunk1_apply :
    Chunk.chunk1 xb wq wo (Chunk.projKV xb wk) (Chunk.projKV xb wv) (ix2 r n)
      = partialOut (rowsOf xb) (wtsOf wq) (wtsOf wk) (wtsOf wv) (wtsOf wo) ⟨128 + r.val, by omega⟩ n :=
  chunkAt_apply xb wq wk wv wo r n 128 _ (by omega)

end Cert.ChunkValue

end
-- ==== Proof.RefValue.lean ====
import proofs.«900515_g7700000000000516_dist_attn_self_mha_htp_bs_b1_sq256_skv256_d1024_hq8_dh128_v7x_i4_bf16_1_alg».proof.Proof.Gen.ReferenceIdeal.Read
import proofs.«900515_g7700000000000516_dist_attn_self_mha_htp_bs_b1_sq256_skv256_d1024_hq8_dh128_v7x_i4_bf16_1_alg».proof.Proof.Spec
import Idealize.ShloMosaic.PureOps.Reduce
import Idealize.ShloMosaic.PureOps.Ideal.Laws
import Idealize.ShloMosaic.Lib.ValueIdx
import Mathlib.Data.Fintype.BigOperators

noncomputable section

open scoped BigOperators

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

def xblk (X : (⟨S4x256x1024, .f32⟩ : BufTy).Contents (Elt Ideal)) (b : Fin 4) : Cert.Spec.Rows :=
  fun r k => X (ix3 b r k)

def colBlk (W : (⟨S1024x4096, .f32⟩ : BufTy).Contents (Elt Ideal)) (g : Fin 4) : Cert.Spec.Wts :=
  fun k n => W (ix2 k ⟨g.val * 1024 + n.val, by omega⟩)

def rowBlk (W : (⟨S4096x1024, .f32⟩ : BufTy).Contents (Elt Ideal)) (g : Fin 4) : Cert.Spec.Wts :=
  fun k n => W (ix2 ⟨g.val * 1024 + k.val, by omega⟩ n)

def ghead (g : Fin 4) (hd : Fin 8) : Fin 32 := ⟨g.val * 8 + hd.val, by omega⟩

theorem ofBits_neg_inf : Ideal.ofBits .f32 0xFF800000#32 = (⊥ : EReal) := by
  simp [Ideal.ofBits, Ideal.ieee]

theorem sum_blocks (f : Fin 4096 → EReal) :
    ∑ kk : Fin 4096, f kk = ∑ g : Fin 4, ∑ c : Fin 1024, f ⟨g.val * 1024 + c.val, by omega⟩ := by
  rw [← Fintype.sum_prod_type (f := fun p : Fin 4 × Fin 1024 => f ⟨p.1.val * 1024 + p.2.val, by omega⟩)]
  exact (Fintype.sum_equiv (finProdFinEquiv (m := 4) (n := 1024)) _ f fun p =>
    congrArg f (Fin.ext (by show p.1.val * 1024 + p.2.val = p.2.val + 1024 * p.1.val; omega))).symm

variable (X : (⟨S4x256x1024, .f32⟩ : BufTy).Contents (Elt Ideal))
  (Wq : (⟨S1024x4096, .f32⟩ : BufTy).Contents (Elt Ideal))
  (Wo : (⟨S4096x1024, .f32⟩ : BufTy).Contents (Elt Ideal))
  (Wk Wv : (⟨S1024x4096, .f32⟩ : BufTy).Contents (Elt Ideal))

theorem q_lidx (b : Fin 4) (r : Fin 256) (h : Fin 32) (e : Fin 128) (k : Fin 1024) :
    lidx_main_v0 (idx_main_v1 (ix4 b r h e)) k = ix3 b r k :=
  funext fun a => Fin.ext (by
    match a with
    | ⟨0, _⟩ => show (((b.val * 256 + r.val) * 32 + h.val) * 128 + e.val) / 1048576 = b.val; omega
    | ⟨1, _⟩ => show (((b.val * 256 + r.val) * 32 + h.val) * 128 + e.val) / 4096 % 256 = r.val; omega
    | ⟨2, _⟩ => rfl)

theorem q_ridx (b : Fin 4) (r : Fin 256) (g : Fin 4) (hd : Fin 8) (e : Fin 128) (k : Fin 1024) :
    ridx_main_v0 (idx_main_v1 (ix4 b r (ghead g hd) e)) k
      = ix2 k (⟨g.val * 1024 + (Cert.Spec.hcol hd e).val, by have := (Cert.Spec.hcol hd e).isLt; omega⟩ : Fin 4096) :=
  funext fun a => Fin.ext (by
    match a with
    | ⟨0, _⟩ => rfl
    | ⟨1, _⟩ => show (((b.val * 256 + r.val) * 32 + (g.val * 8 + hd.val)) * 128 + e.val) % 4096 = g.val * 1024 + (hd.val * 128 + e.val); omega)

theorem q_at (b : Fin 4) (r : Fin 256) (g : Fin 4) (hd : Fin 8) (e : Fin 128) :
    val_main_v1 (F := Ideal) X Wq (ix4 b r (ghead g hd) e)
      = Cert.Spec.proj (xblk X b) (colBlk Wq g) r (Cert.Spec.hcol hd e) := by
  rw [val_main_v1_apply, val_main_v0_apply]
  unfold Cert.Spec.proj xblk colBlk
  refine Finset.sum_congr rfl fun k _ => ?_
  rw [q_lidx, q_ridx]

theorem k_at (b : Fin 4) (r : Fin 256) (g : Fin 4) (hd : Fin 8) (e : Fin 128) :
    val_main_v3 (F := Ideal) X Wk (ix4 b r (ghead g hd) e)
      = Cert.Spec.proj (xblk X b) (colBlk Wk g) r (Cert.Spec.hcol hd e) :=
  q_at X Wk b r g hd e

theorem v_at (b : Fin 4) (r : Fin 256) (g : Fin 4) (hd : Fin 8) (e : Fin 128) :
    val_main_v5 (F := Ideal) X Wv (ix4 b r (ghead g hd) e)
      = Cert.Spec.proj (xblk X b) (colBlk Wv g) r (Cert.Spec.hcol hd e) :=
  q_at X Wv b r g hd e

/-- Batch `b` projected by column block `g` of `W`. -/
abbrev pj (W : (⟨S1024x4096, .f32⟩ : BufTy).Contents (Elt Ideal)) (b g : Fin 4) := Cert.Spec.proj (xblk X b) (colBlk W g)

theorem score_at (b : Fin 4) (g : Fin 4) (hd : Fin 8) (r j : Fin 256) :
    val_main_v11 (F := Ideal) X Wq Wk (ix4 b (ghead g hd) r j) = Cert.Spec.score (pj X Wq b g) (pj X Wk b g) hd r j := by
  have el : ∀ e : Fin 128, lidx_main_v9 (ix4 b (ghead g hd) r j) e = ix4 b r (ghead g hd) e := fun _ => eq_ix4 _
  have er : ∀ e : Fin 128, ridx_main_v9 (ix4 b (ghead g hd) r j) e = ix4 b j (ghead g hd) e := fun _ => eq_ix4 _
  rw [val_main_v11_apply, val_main_v9_apply, val_main_v10_apply, val_main_cst_2_apply]
  unfold Cert.Spec.score
  refine congrArg (· * Cert.Spec.scale) (Finset.sum_congr rfl fun e _ => ?_)
  rw [el, er, q_at, k_at]

theorem max_at (b : Fin 4) (g : Fin 4) (hd : Fin 8) (r : Fin 256) :
    val_main_v12 (F := Ideal) X Wq Wk (ix3 b (ghead g hd) r) = Cert.Spec.rowMax (Cert.Spec.score (pj X Wq b g) (pj X Wk b g) hd r) := by
  have h : S4x32x256x256.Reduces [3] S4x32x256 := by decide
  have hl : ∀ j : Fin 256, h.lift (ix3 b (ghead g hd) r) j = ix4 b (ghead g hd) r j := fun _ => eq_ix4 _
  unfold val_main_v12
  rw [Host.reduce_eq_fold_single FloatOps.maximumf _ _ reducesTo_S4x32x256x256_S4x32x256_d3 h h_S_, val_main_cst_3_apply]
  unfold Cert.Spec.rowMax
  show (Finset.univ : Finset (Fin 256)).fold max (Ideal.ofBits .f32 0xFF800000#32) _ = _
  rw [ofBits_neg_inf]
  refine Finset.fold_congr fun j _ => ?_
  show val_main_v11 (F := Ideal) X Wq Wk (h.lift (ix3 b (ghead g hd) r) j) = _
  rw [hl, score_at]

theorem mnew_at (b : Fin 4) (g : Fin 4) (hd : Fin 8) (r : Fin 256) (z : Fin 1) :
    val_main_v14 (F := Ideal) X Wq Wk (ix4 b (ghead g hd) r z) = Cert.Spec.rowMax (Cert.Spec.score (pj X Wq b g) (pj X Wk b g) hd r) := by
  have e : idx_main_v13 (ix4 b (ghead g hd) r z) = ix3 b (ghead g hd) r := eq_ix3 _
  rw [val_main_v14_apply, val_main_v7_apply, val_main_cst_0_apply, val_main_v13_apply, e, max_at]
  show max (Ideal.ofBits .f32 0xFF800000#32) _ = _
  rw [ofBits_neg_inf, max_bot_left]

theorem p_at (b : Fin 4) (g : Fin 4) (hd : Fin 8) (r j : Fin 256) :
    val_main_v19 (F := Ideal) X Wq Wk (ix4 b (ghead g hd) r j) = Cert.Spec.prob (pj X Wq b g) (pj X Wk b g) hd r j := by
  have e : idx_main_v17 (ix4 b (ghead g hd) r j) = ix4 b (ghead g hd) r (0 : Fin 1) := eq_ix4 _
  rw [val_main_v19_apply, val_main_v18_apply, val_main_v17_apply, e, mnew_at, score_at]
  rfl

theorem l_at (b : Fin 4) (g : Fin 4) (hd : Fin 8) (r : Fin 256) (z : Fin 1) :
    val_main_v23 (F := Ideal) X Wq Wk (ix4 b (ghead g hd) r z) = ∑ j : Fin 256, Cert.Spec.prob (pj X Wq b g) (pj X Wk b g) hd r j := by
  have e : ∀ j : Fin 256, idx_main_v21 (idx_main_v22 (ix4 b (ghead g hd) r z)) j = ix4 b (ghead g hd) r j := fun _ => eq_ix4 _
  rw [val_main_v23_apply, val_main_v20_apply, val_main_v8_apply, val_main_cst_1_apply, val_main_v22_apply, val_main_v21_apply,
    val_main_cst_4_apply]
  show Ideal.ofBits .f32 0x00000000#32 * _ + (Ideal.ofBits .f32 0x00000000#32 + ∑ j : Fin 256, _) = _
  rw [Ideal.ofBits_zero_f32, zero_mul, zero_add, zero_add]
  refine Finset.sum_congr rfl fun j _ => ?_
  rw [e, p_at]

theorem o_at (b : Fin 4) (r : Fin 256) (g : Fin 4) (hd : Fin 8) (e : Fin 128) :
    val_main_v29 (F := Ideal) X Wq Wk Wv (ix4 b r (ghead g hd) e)
      = ∑ j : Fin 256, Cert.Spec.prob (pj X Wq b g) (pj X Wk b g) hd r j * (pj X Wv b g) j (Cert.Spec.hcol hd e) := by
  have el : ∀ j : Fin 256, lidx_main_v27 (idx_main_v28 (ix4 b r (ghead g hd) e)) j = ix4 b j (ghead g hd) e := fun _ => eq_ix4 _
  have er : ∀ j : Fin 256, ridx_main_v27 (idx_main_v28 (ix4 b r (ghead g hd) e)) j = ix4 b (ghead g hd) r j := fun _ => eq_ix4 _
  rw [val_main_v29_apply, val_main_v26_apply, val_main_v6_apply, val_main_cst_apply, val_main_v28_apply, val_main_v27_apply]
  show Ideal.ofBits .f32 0x00000000#32 * _ + ∑ j : Fin 256, _ = _
  rw [Ideal.ofBits_zero_f32, zero_mul, zero_add]
  refine Finset.sum_congr rfl fun j _ => ?_
  rw [el, er, v_at, p_at, mul_comm]

theorem head_at (b : Fin 4) (r : Fin 256) (g : Fin 4) (hd : Fin 8) (e : Fin 128) :
    val_main_v32 (F := Ideal) X Wq Wk Wv (ix4 b r (ghead g hd) e) = Cert.Spec.headOut (pj X Wq b g) (pj X Wk b g) (pj X Wv b g) hd r e := by
  have e1 : idx_main_v30 (idx_main_v31 (ix4 b r (ghead g hd) e)) = ix4 b (ghead g hd) r (0 : Fin 1) := eq_ix4 _
  rw [val_main_v32_apply, o_at, val_main_v31_apply, val_main_v30_apply, e1, l_at]
  rfl

theorem cat_at (b : Fin 4) (r : Fin 256) (g : Fin 4) (c : Fin 1024) :
    val_main_v33 (F := Ideal) X Wq Wk Wv (ix3 b r (⟨g.val * 1024 + c.val, by omega⟩ : Fin 4096))
      = Cert.Spec.headCat (pj X Wq b g) (pj X Wk b g) (pj X Wv b g) r c := by
  have e : idx_main_v33 (ix3 b r (⟨g.val * 1024 + c.val, by omega⟩ : Fin 4096))
      = ix4 b r (ghead g ⟨c.val / 128, by omega⟩) (⟨c.val % 128, Nat.mod_lt _ (by decide)⟩ : Fin 128) :=
    funext fun a => Fin.ext (by
      match a with
      | ⟨0, _⟩ => show ((b.val * 256 + r.val) * 4096 + (g.val * 1024 + c.val)) / 1048576 = b.val; omega
      | ⟨1, _⟩ => show ((b.val * 256 + r.val) * 4096 + (g.val * 1024 + c.val)) / 4096 % 256 = r.val; omega
      | ⟨2, _⟩ => show ((b.val * 256 + r.val) * 4096 + (g.val * 1024 + c.val)) / 128 % 32 = g.val * 8 + c.val / 128; omega
      | ⟨3, _⟩ => show ((b.val * 256 + r.val) * 4096 + (g.val * 1024 + c.val)) % 128 = c.val % 128; omega)
  rw [val_main_v33_apply, e, head_at]
  rfl

theorem ref_apply (b : Fin 4) (r : Fin 256) (n : Fin 1024) :
    val_main_v35 (F := Ideal) X Wq Wo Wk Wv (ix3 b r n)
      = ∑ g : Fin 4, Cert.Spec.partialOut (xblk X b) (colBlk Wq g) (colBlk Wk g) (colBlk Wv g) (rowBlk Wo g) r n := by
  have el : ∀ kk : Fin 4096, lidx_main_v34 (ix3 b r n) kk = ix3 b r kk := fun _ => eq_ix3 _
  have er : ∀ kk : Fin 4096, ridx_main_v34 (ix3 b r n) kk = ix2 kk n := fun _ => eq_ix2 _
  rw [val_main_v35_apply, val_main_v34_apply]
  show ∑ kk : Fin 4096, _ = _
  rw [sum_blocks]
  refine Finset.sum_congr rfl fun g _ => ?_
  unfold Cert.Spec.partialOut
  refine Finset.sum_congr rfl fun c _ => ?_
  rw [el, er, cat_at]
  rfl

end Cert.RefValue

end
-- ==== Proof.Join.lean ====
import proofs.«900515_g7700000000000516_dist_attn_self_mha_htp_bs_b1_sq256_skv256_d1024_hq8_dh128_v7x_i4_bf16_1_alg».proof.Proof.Final
import proofs.«900515_g7700000000000516_dist_attn_self_mha_htp_bs_b1_sq256_skv256_d1024_hq8_dh128_v7x_i4_bf16_1_alg».proof.Proof.Contents
import proofs.«900515_g7700000000000516_dist_attn_self_mha_htp_bs_b1_sq256_skv256_d1024_hq8_dh128_v7x_i4_bf16_1_alg».proof.Proof.ChunkValue
import proofs.«900515_g7700000000000516_dist_attn_self_mha_htp_bs_b1_sq256_skv256_d1024_hq8_dh128_v7x_i4_bf16_1_alg».proof.Proof.RefValue
import proofs.«900515_g7700000000000516_dist_attn_self_mha_htp_bs_b1_sq256_skv256_d1024_hq8_dh128_v7x_i4_bf16_1_alg».proof.Proof.Proto
import Idealize.ShloMosaic.Lib.Layout
import Idealize.ShloMosaic.Lib.ValueIdx
import Idealize.ShloMosaic.Lib.ValueLayout
import Idealize.ShloMosaic.Lib.Pipeline.Value

noncomputable section

open scoped BigOperators

namespace Cert.Join

open Idealize.ShloMosaic Idealize.ShloMosaic.TcCoe Idealize.ShloMosaic.ValueIdx Idealize.SL.Sem
open Cert.KernelIdeal Cert.KernelIdeal.Gen Cert.KernelIdeal.Proto Cert.KernelIdeal.Contents Cert.KernelIdeal.Final
open Cert.ChunkValue Cert.RefValue

variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp)

theorem xbfC_apply (a0 : FVec Ideal S1x256x1024 .f32) (r : Fin 256) (k : Fin 1024) :
    xbfC (F := Ideal) a0 (ix2 r k) = a0 (ix3 (0 : Fin 1) r k) := by
  unfold xbfC k0_pay1
  refine (congrFun (shapeCast_self _ shapeCasts_S256x1024_S256x1024) (ix2 r k)).trans ?_
  exact shapeCast_1ab_ab_apply a0 _ r k

theorem wC_apply (a : FVec Ideal S1x1024x1024 .f32) (k : Fin 1024) (n : Fin 1024) :
    wC (F := Ideal) a (ix2 k n) = a (ix3 (0 : Fin 1) k n) := by
  unfold wC k0_pay2
  exact shapeCast_1ab_ab_apply a _ k n

theorem recv_apply (xs : FVec Ideal S1x256x1024 .bf16) (r : Fin 256) (k : Fin 1024) :
    recv (F := Ideal) xs (ix2 r k) = xs (ix3 (0 : Fin 1) r k) :=
  shapeCast_1ab_ab_apply xs _ r k

theorem widen_apply (v : FVec Ideal S1x1x128x1024 .bf16) (p : Fin 128) (n : Fin 1024) :
    widen (F := Ideal) v (ix2 p n) = v (ix4 (0 : Fin 1) (0 : Fin 1) p n) :=
  shapeCast_11ab_ab_apply v _ p n

theorem rows_block (m : (ℓ : Loc nD τ sig) → Buf (Elt Ideal) ℓ) (X : (⟨Cert.ReferenceIdeal.S4x256x1024, .f32⟩ : BufTy).Contents (Elt Ideal))
    (h : ∀ c : Dev nD, m ((c.tc : Thread nD τ).loc main_arg0) = Layout.block ⟨3, ![1, 256, 1024]⟩ ⟨3, ![4, 256, 1024]⟩ 0 4 c X)
    (c : Dev nD) : rowsOf (xbfOf m c) = xblk X c := by
  funext r k
  unfold rowsOf xbfOf xblk
  rw [xbfC_apply, h c]
  refine congrArg X (funext fun a => Fin.ext ?_)
  match a with
  | ⟨0, _⟩ => show c.val * 1 + 0 = c.val; omega
  | ⟨1, _⟩ => rfl
  | ⟨2, _⟩ => rfl

-- A weight held as the `c`-th block of 1024 columns of `W` is, as a matrix, that column block.
theorem col_block (a : Vec Ideal S1024x1024 .f32) (W : (⟨Cert.ReferenceIdeal.S1024x4096, .f32⟩ : BufTy).Contents (Elt Ideal)) (c : Dev nD)
    (h : a = Layout.block ⟨2, ![1024, 1024]⟩ ⟨2, ![1024, 4096]⟩ 1 4 c W) : wtsOf (wC (slab a)) = colBlk W c := by
  subst h
  funext k n
  unfold wtsOf colBlk
  rw [wC_apply]
  show (Layout.block ⟨2, ![1024, 1024]⟩ ⟨2, ![1024, 4096]⟩ 1 4 c W) (ix2 k n) = _
  refine congrArg W (funext fun a => Fin.ext ?_)
  match a with
  | ⟨0, _⟩ => rfl
  | ⟨1, _⟩ => rfl

theorem wo_block (m : (ℓ : Loc nD τ sig) → Buf (Elt Ideal) ℓ) (Wo : (⟨Cert.ReferenceIdeal.S4096x1024, .f32⟩ : BufTy).Contents (Elt Ideal))
    (h : ∀ c : Dev nD, m ((c.tc : Thread nD τ).loc main_arg2) = Layout.block ⟨2, ![1024, 1024]⟩ ⟨2, ![4096, 1024]⟩ 0 4 c Wo)
    (c : Dev nD) : wtsOf (woOf m c) = rowBlk Wo c := by
  funext k n
  unfold wtsOf woOf rowBlk
  rw [wC_apply]
  show m ((c.tc : Thread nD τ).loc main_arg2) (ix2 k n) = _
  rw [h c]
  refine congrArg Wo (funext fun a => Fin.ext ?_)
  match a with
  | ⟨0, _⟩ => rfl
  | ⟨1, _⟩ => rfl

theorem recv_slot (m : (ℓ : Loc nD τ sig) → Buf (Elt Ideal) ℓ) (c' : Dev nD) (i : Fin 3) :
    recv (slotOf (xgOf m c') i) = xbfOf m (sh c' (3 - i.val)) := by
  funext j
  obtain ⟨r, k, rfl⟩ : ∃ (r : Fin 256) (k : Fin 1024), j = ix2 r k := ⟨j 0, j 1, eq_ix2 j⟩
  rw [recv_apply]
  rfl

theorem part_zero_apply (i : Fin 3) (wq wk wv wo : FVec Ideal S1024x1024 .bf16) (xs : FVec Ideal S1x256x1024 .bf16)
    (p : Fin 128) (n : Fin 1024) :
    part i 0 wq wk wv wo xs (ix4 (0 : Fin 1) (0 : Fin 1) p n)
      = Chunk.chunk0 (recv xs) wq wo (Chunk.projKV (recv xs) wk) (Chunk.projKV (recv xs) wv) (ix2 p n) := by
  rw [part_zero]
  exact shapeCast_ab_11ab_apply _ _ 0 0 p n

theorem part_one_apply (i : Fin 3) (wq wk wv wo : FVec Ideal S1024x1024 .bf16) (xs : FVec Ideal S1x256x1024 .bf16)
    (p : Fin 128) (n : Fin 1024) :
    part i 1 wq wk wv wo xs (ix4 (0 : Fin 1) (0 : Fin 1) p n)
      = Chunk.chunk1 (recv xs) wq wo (Chunk.projKV (recv xs) wk) (Chunk.projKV (recv xs) wv) (ix2 p n) := by
  rw [part_one]
  exact shapeCast_ab_11ab_apply _ _ 0 0 p n

def share (X : (⟨Cert.ReferenceIdeal.S4x256x1024, .f32⟩ : BufTy).Contents (Elt Ideal))
    (Wq : (⟨Cert.ReferenceIdeal.S1024x4096, .f32⟩ : BufTy).Contents (Elt Ideal))
    (Wo : (⟨Cert.ReferenceIdeal.S4096x1024, .f32⟩ : BufTy).Contents (Elt Ideal))
    (Wk Wv : (⟨Cert.ReferenceIdeal.S1024x4096, .f32⟩ : BufTy).Contents (Elt Ideal)) (b g : Fin 4) (R : Fin 256) (n : Fin 1024) : EReal :=
  Cert.Spec.partialOut (xblk X b) (colBlk Wq g) (colBlk Wk g) (colBlk Wv g) (rowBlk Wo g) R n

theorem sum_four (c : Dev nD) (f : Fin 4 → EReal) : f c + f (sh c 1) + f (sh c 3) + f (sh c 2) = ∑ g : Fin 4, f g := by
  rw [Fin.sum_univ_four]
  have key : ∀ c : Fin 4, (c = 0 ∧ sh c 1 = 1 ∧ sh c 3 = 3 ∧ sh c 2 = 2) ∨ (c = 1 ∧ sh c 1 = 2 ∧ sh c 3 = 0 ∧ sh c 2 = 3)
      ∨ (c = 2 ∧ sh c 1 = 3 ∧ sh c 3 = 1 ∧ sh c 2 = 0) ∨ (c = 3 ∧ sh c 1 = 0 ∧ sh c 3 = 2 ∧ sh c 2 = 1) := by decide
  rcases key c with ⟨rfl, a, b, d⟩ | ⟨rfl, a, b, d⟩ | ⟨rfl, a, b, d⟩ | ⟨rfl, a, b, d⟩ <;> rw [a, b, d] <;> simp only [add_assoc, add_comm, add_left_comm]

theorem outOf_lo (m : (ℓ : Loc nD τ sig) → Buf (Elt Ideal) ℓ) (c : Dev nD) (R : Fin 256) (n : Fin 1024) (h : R.val < 128) :
    outOf m c (ix3 (0 : Fin 1) R n)
      = out0 (own0 (wqOf m c) (wkOf m c) (wvOf m c) (woOf m c) (xbfOf m c))
          (slot4Of (rrOf m c) 0 0) (slot4Of (rrOf m c) 2 0) (slot4Of (rrOf m c) 1 0) (ix3 (0 : Fin 1) (⟨R.val, h⟩ : Fin 128) n) :=
  dif_pos h

theorem outOf_hi (m : (ℓ : Loc nD τ sig) → Buf (Elt Ideal) ℓ) (c : Dev nD) (R : Fin 256) (n : Fin 1024) (h : ¬R.val < 128) :
    outOf m c (ix3 (0 : Fin 1) R n)
      = out1 (own1 (wqOf m c) (wkOf m c) (wvOf m c) (woOf m c) (xbfOf m c))
          (slot4Of (rrOf m c) 0 1) (slot4Of (rrOf m c) 2 1) (slot4Of (rrOf m c) 1 1)
          (ix3 (0 : Fin 1) (⟨R.val - 128, by have := R.isLt; omega⟩ : Fin 128) n) :=
  dif_neg h

section Terms
variable (m : (ℓ : Loc nD τ sig) → Buf (Elt Ideal) ℓ)
    (X : (⟨Cert.ReferenceIdeal.S4x256x1024, .f32⟩ : BufTy).Contents (Elt Ideal))
    (Wq : (⟨Cert.ReferenceIdeal.S1024x4096, .f32⟩ : BufTy).Contents (Elt Ideal))
    (Wo : (⟨Cert.ReferenceIdeal.S4096x1024, .f32⟩ : BufTy).Contents (Elt Ideal))
    (Wk Wv : (⟨Cert.ReferenceIdeal.S1024x4096, .f32⟩ : BufTy).Contents (Elt Ideal))
    (h0 : ∀ c : Dev nD, m ((c.tc : Thread nD τ).loc main_arg0) = Layout.block ⟨3, ![1, 256, 1024]⟩ ⟨3, ![4, 256, 1024]⟩ 0 4 c X)
    (h1 : ∀ c : Dev nD, m ((c.tc : Thread nD τ).loc main_arg1) = Layout.block ⟨2, ![1024, 1024]⟩ ⟨2, ![1024, 4096]⟩ 1 4 c Wq)
    (h2 : ∀ c : Dev nD, m ((c.tc : Thread nD τ).loc main_arg2) = Layout.block ⟨2, ![1024, 1024]⟩ ⟨2, ![4096, 1024]⟩ 0 4 c Wo)
    (h3 : ∀ c : Dev nD, m ((c.tc : Thread nD τ).loc main_arg3) = Layout.block ⟨2, ![1024, 1024]⟩ ⟨2, ![1024, 4096]⟩ 1 4 c Wk)
    (h4 : ∀ c : Dev nD, m ((c.tc : Thread nD τ).loc main_arg4) = Layout.block ⟨2, ![1024, 1024]⟩ ⟨2, ![1024, 4096]⟩ 1 4 c Wv)
include h0 h1 h2 h3 h4

-- The partial output from the rows held by `c` and the weights held by `c'` is the reference's share `(c, c')`.
theorem share_of (c c' : Dev nD) (R R' : Fin 256) (hR : R'.val = R.val) (n : Fin 1024) :
    Cert.Spec.partialOut (rowsOf (xbfOf m c)) (wtsOf (wqOf m c')) (wtsOf (wkOf m c')) (wtsOf (wvOf m c')) (wtsOf (woOf m c')) R n
      = share X Wq Wo Wk Wv c c' R' n := by
  obtain rfl : R' = R := Fin.ext hR
  unfold share wqOf wkOf wvOf
  rw [rows_block m X h0, col_block _ Wq c' (h1 c'), col_block _ Wk c' (h3 c'), col_block _ Wv c' (h4 c'), wo_block m Wo h2]

theorem own0_at (c : Dev nD) (p : Fin 128) (n : Fin 1024) (R : Fin 256) (hR : R.val = p.val) :
    own0 (wqOf m c) (wkOf m c) (wvOf m c) (woOf m c) (xbfOf m c) (ix2 p n) = share X Wq Wo Wk Wv c c R n := by
  rw [own0_eq, chunk0_apply]
  exact share_of m X Wq Wo Wk Wv h0 h1 h2 h3 h4 c c _ R hR n

theorem own1_at (c : Dev nD) (p : Fin 128) (n : Fin 1024) (R : Fin 256) (hR : R.val = 128 + p.val) :
    own1 (wqOf m c) (wkOf m c) (wvOf m c) (woOf m c) (xbfOf m c) (ix2 p n) = share X Wq Wo Wk Wv c c R n := by
  rw [own1_eq, chunk1_apply]
  exact share_of m X Wq Wo Wk Wv h0 h1 h2 h3 h4 c c _ R hR n

theorem rr0_at (c : Dev nD) (i : Fin 3) (p : Fin 128) (n : Fin 1024) (R : Fin 256) (hR : R.val = p.val) :
    widen (slot4Of (rrOf m c) i 0) (ix2 p n) = share X Wq Wo Wk Wv c (sh c (i.val + 1)) R n := by
  refine (widen_apply _ p n).trans ?_
  show part i 0 (wqOf m (sh c (i.val + 1))) (wkOf m (sh c (i.val + 1))) (wvOf m (sh c (i.val + 1))) (woOf m (sh c (i.val + 1)))
      (slotOf (xgOf m (sh c (i.val + 1))) i) (ix4 (0 : Fin 1) (0 : Fin 1) p n) = _
  rw [part_zero_apply, recv_slot, sh_sh, show i.val + 1 + (3 - i.val) = 4 by omega, sh_four, chunk0_apply]
  exact share_of m X Wq Wo Wk Wv h0 h1 h2 h3 h4 c _ _ R hR n

theorem rr1_at (c : Dev nD) (i : Fin 3) (p : Fin 128) (n : Fin 1024) (R : Fin 256) (hR : R.val = 128 + p.val) :
    widen (slot4Of (rrOf m c) i 1) (ix2 p n) = share X Wq Wo Wk Wv c (sh c (i.val + 1)) R n := by
  refine (widen_apply _ p n).trans ?_
  show part i 1 (wqOf m (sh c (i.val + 1))) (wkOf m (sh c (i.val + 1))) (wvOf m (sh c (i.val + 1))) (woOf m (sh c (i.val + 1)))
      (slotOf (xgOf m (sh c (i.val + 1))) i) (ix4 (0 : Fin 1) (0 : Fin 1) p n) = _
  rw [part_one_apply, recv_slot, sh_sh, show i.val + 1 + (3 - i.val) = 4 by omega, sh_four, chunk1_apply]
  exact share_of m X Wq Wo Wk Wv h0 h1 h2 h3 h4 c _ _ R hR n

theorem out_block (c : Dev nD) :
    Cert.KernelIdeal.Final.outOf m c
      = Layout.block ⟨3, ![1, 256, 1024]⟩ ⟨3, ![4, 256, 1024]⟩ 0 4 c (Cert.ReferenceIdeal.Read.val_main_v35 X Wq Wo Wk Wv) := by
  funext j
  obtain ⟨u, R, n, rfl⟩ : ∃ (u : Fin 1) (R : Fin 256) (n : Fin 1024), j = ix3 u R n := ⟨j 0, j 1, j 2, eq_ix3 j⟩
  obtain rfl : u = 0 := Subsingleton.elim _ _
  have hrhs : (Layout.block ⟨3, ![1, 256, 1024]⟩ ⟨3, ![4, 256, 1024]⟩ 0 4 c (Cert.ReferenceIdeal.Read.val_main_v35 X Wq Wo Wk Wv)) (ix3 (0 : Fin 1) R n)
      = ∑ g : Fin 4, share X Wq Wo Wk Wv c g R n := by
    refine Eq.trans ?_ (ref_apply X Wq Wo Wk Wv c R n)
    refine congrArg (Cert.ReferenceIdeal.Read.val_main_v35 X Wq Wo Wk Wv) (funext fun a => Fin.ext ?_)
    match a with
    | ⟨0, _⟩ => show c.val * 1 + 0 = c.val; omega
    | ⟨1, _⟩ => rfl
    | ⟨2, _⟩ => rfl
  rw [hrhs]
  by_cases h : R.val < 128
  · rw [outOf_lo m c R n h, out0_eq]
    refine (shapeCast_ab_1ab_apply _ _ 0 (⟨R.val, h⟩ : Fin 128) n).trans ?_
    show own0 (wqOf m c) (wkOf m c) (wvOf m c) (woOf m c) (xbfOf m c) (ix2 (⟨R.val, h⟩ : Fin 128) n)
        + widen (slot4Of (rrOf m c) 0 0) (ix2 (⟨R.val, h⟩ : Fin 128) n)
        + widen (slot4Of (rrOf m c) 2 0) (ix2 (⟨R.val, h⟩ : Fin 128) n)
        + widen (slot4Of (rrOf m c) 1 0) (ix2 (⟨R.val, h⟩ : Fin 128) n) = _
    rw [own0_at m X Wq Wo Wk Wv h0 h1 h2 h3 h4 c _ n R rfl, rr0_at m X Wq Wo Wk Wv h0 h1 h2 h3 h4 c 0 _ n R rfl,
      rr0_at m X Wq Wo Wk Wv h0 h1 h2 h3 h4 c 2 _ n R rfl, rr0_at m X Wq Wo Wk Wv h0 h1 h2 h3 h4 c 1 _ n R rfl]
    exact sum_four c (fun g => share X Wq Wo Wk Wv c g R n)
  · have hp : R.val = 128 + (R.val - 128) := by omega
    rw [outOf_hi m c R n h, out1_eq]
    refine (shapeCast_ab_1ab_apply _ _ 0 (⟨R.val - 128, by have := R.isLt; omega⟩ : Fin 128) n).trans ?_
    show own1 (wqOf m c) (wkOf m c) (wvOf m c) (woOf m c) (xbfOf m c) (ix2 (⟨R.val - 128, by have := R.isLt; omega⟩ : Fin 128) n)
        + widen (slot4Of (rrOf m c) 0 1) (ix2 (⟨R.val - 128, by have := R.isLt; omega⟩ : Fin 128) n)
        + widen (slot4Of (rrOf m c) 2 1) (ix2 (⟨R.val - 128, by have := R.isLt; omega⟩ : Fin 128) n)
        + widen (slot4Of (rrOf m c) 1 1) (ix2 (⟨R.val - 128, by have := R.isLt; omega⟩ : Fin 128) n) = _
    rw [own1_at m X Wq Wo Wk Wv h0 h1 h2 h3 h4 c _ n R hp, rr1_at m X Wq Wo Wk Wv h0 h1 h2 h3 h4 c 0 _ n R hp,
      rr1_at m X Wq Wo Wk Wv h0 h1 h2 h3 h4 c 2 _ n R hp, rr1_at m X Wq Wo Wk Wv h0 h1 h2 h3 h4 c 1 _ n R hp]
    exact sum_four c (fun g => share X Wq Wo Wk Wv c g R n)

end Terms

end Cert.Join

end
-- ==== Proof.Iface.lean ====
import proofs.«900515_g7700000000000516_dist_attn_self_mha_htp_bs_b1_sq256_skv256_d1024_hq8_dh128_v7x_i4_bf16_1_alg».proof.Proof.Proto
import proofs.«900515_g7700000000000516_dist_attn_self_mha_htp_bs_b1_sq256_skv256_d1024_hq8_dh128_v7x_i4_bf16_1_alg».proof.Proof.Gen.KernelIdeal.Frame

noncomputable section

namespace Cert.KernelIdeal.Iface

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def L (g : GSem nD τ sig) : Finset Unit := if g.1.2 = .tc then {()} else ∅

def lv (g : GSem nD τ sig) (_ : Unit) : ℕ := match g.2 with
  | .reg s => if s = barS then 1 else 0
  | .dma k => if 8 ≤ k.val ∧ k.val ≤ 10 then 2 else if 17 ≤ k.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by
  show (if barS = barS then 1 else 0) = 1; rw [if_pos rfl]
theorem lv_dma (c : Dev nD) (k : DmaSem sig) :
    lv (dcell c k) () = if 8 ≤ k.val ∧ k.val ≤ 10 then 2 else if 17 ≤ k.val then 3 else 0 := rfl

def AllAbove (n : ℕ) (O : CellTallies nD τ sig Unit) : Prop := ∀ g u, 0 < O g u → g.1.2 = .tc ∧ n < lv g u

theorem allAbove_zero (n : ℕ) : AllAbove n 0 := fun g u h => absurd h (Nat.lt_irrefl 0)

theorem allAbove_tallyAt {n : ℕ} {g : GSem nD τ sig} (k : ℕ) (hg : g.1.2 = .tc) (h : n < lv g ()) : AllAbove n (tallyAt g () k) :=
  fun g' u hp => by obtain ⟨rfl, rfl⟩ := Pipeline.tallyAt_pos hp; exact ⟨hg, h⟩

theorem allAbove_add {n : ℕ} {O₁ O₂ : CellTallies nD τ sig Unit} (h₁ : AllAbove n O₁) (h₂ : AllAbove n O₂) : AllAbove n (O₁ + O₂) :=
  fun g u hp => (Pipeline.add_pos_cases hp).elim (h₁ g u) (h₂ g u)

theorem mayWait_of_above (c : Dev nD) (sm : SemLoc sig) (n : ℕ) (O : CellTallies nD τ sig Unit)
    (hs : lv ((c : Thread nD τ), sm) () ≤ n) (hO : AllAbove n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      have h1 : L g = {()} := if_pos (hO g u hg).1
      rw [h1]; exact Finset.mem_singleton_self _)
    (fun p hp => by rw [Finset.mem_singleton.mp hp]; exact hs)
    (fun g u hg => (hO g u hg).2)

def O₀ (c : Dev nD) : CellTallies nD τ sig Unit :=
  tallyAt (dcell (sh c 2) rsR11s) () Nrs
    + tallyAt (dcell (sh c 2) rsR10s) () Nrs
    + tallyAt (dcell (sh c 1) rsR21s) () Nrs
    + tallyAt (dcell (sh c 1) rsR20s) () Nrs
    + tallyAt (dcell (sh c 3) rsR01s) () Nrs
    + tallyAt (dcell (sh c 3) rsR00s) () Nrs
    + tallyAt (dcell (sh c 2) agR1) () Nag
    + tallyAt (dcell (sh c 3) agR2) () Nag
    + tallyAt (dcell (sh c 1) agR0) () Nag
    + tallyAt (barCell (sh c 3)) () 1
    + tallyAt (barCell (sh c 2)) () 1
    + tallyAt (barCell (sh c 1)) () 1

variable (xbf : (c : Dev nD) → Buf (Elt F) ((c : Thread nD τ).loc cc0_scratch2))
  (xg : (c : Dev nD) → Buf (Elt F) ((c : Thread nD τ).loc cc0_scratch3))
  (rs : (c : Dev nD) → Buf (Elt F) ((c : Thread nD τ).loc cc0_scratch4))
  (rr : (c : Dev nD) → Buf (Elt F) ((c : Thread nD τ).loc cc0_scratch5))
  (outc : (c : Dev nD) → Buf (Elt F) ((c : Thread nD τ).loc main_v1))

instance storable_ite {P : Prop} [Decidable P] (A B : sProp 𝕄) [BI.Storable (upEmb : UEmb _ 𝕄) A] [BI.Storable (upEmb : UEmb _ 𝕄) B] :
    BI.Storable (upEmb : UEmb _ 𝕄) (if P then A else B) := by split <;> infer_instance

set_option synthInstance.maxHeartbeats 400000 in
set_option maxHeartbeats 1600000 in
instance barPay_storable (p : Dev nD) (d : ℕ) : BI.Storable (upEmb : UEmb _ 𝕄) (barPay (F := F) p d) := by
  unfold barPay; infer_instance

set_option synthInstance.maxHeartbeats 400000 in
set_option maxHeartbeats 1600000 in
instance dmaPay_storable (c : Dev nD) (k : ℕ) : BI.Storable (upEmb : UEmb _ 𝕄) (dmaPay xbf xg rs rr c k) := by
  unfold dmaPay; infer_instance

instance sched_payload_storable (g : GSem nD τ sig) (r : ℕ) (d : Fin 4) :
    BI.Storable (upEmb : UEmb _ 𝕄) ((sched xbf xg rs rr).payload g r d) := by
  show BI.Storable upEmb (match g.2 with
    | .reg _ => barPay (sh g.1.1 (4 - d.val)) d.val
    | .dma k => dmaPay xbf xg rs rr g.1.1 k.val)
  cases g.2 with
  | reg s => exact barPay_storable _ _
  | dma k => exact dmaPay_storable xbf xg rs rr _ _

def invsOwn (κ : GSem nD τ sig → ℕ) (c : Dev nD) : sProp 𝕄 :=
  iprop(cellInv ER (sched xbf xg rs rr) (κ (barCell c)) (barCell c)
    ∗ cellInv ER (sched xbf xg rs rr) (κ (dcell c agS0)) (dcell c agS0)
    ∗ cellInv ER (sched xbf xg rs rr) (κ (dcell c agS1)) (dcell c agS1)
    ∗ cellInv ER (sched xbf xg rs rr) (κ (dcell c agS2)) (dcell c agS2)
    ∗ cellInv ER (sched xbf xg rs rr) (κ (dcell c agR0)) (dcell c agR0)
    ∗ cellInv ER (sched xbf xg rs rr) (κ (dcell c agR1)) (dcell c agR1)
    ∗ cellInv ER (sched xbf xg rs rr) (κ (dcell c agR2)) (dcell c agR2)
    ∗ cellInv ER (sched xbf xg rs rr) (κ (dcell c rsS00s)) (dcell c rsS00s)
    ∗ cellInv ER (sched xbf xg rs rr) (κ (dcell c rsS01s)) (dcell c rsS01s)
    ∗ cellInv ER (sched xbf xg rs rr) (κ (dcell c rsS10s)) (dcell c rsS10s)
    ∗ cellInv ER (sched xbf xg rs rr) (κ (dcell c rsS11s)) (dcell c rsS11s)
    ∗ cellInv ER (sched xbf xg rs rr) (κ (dcell c rsS20s)) (dcell c rsS20s)
    ∗ cellInv ER (sched xbf xg rs rr) (κ (dcell c rsS21s)) (dcell c rsS21s)
    ∗ cellInv ER (sched xbf xg rs rr) (κ (dcell c rsR00s)) (dcell c rsR00s)
    ∗ cellInv ER (sched xbf xg rs rr) (κ (dcell c rsR01s)) (dcell c rsR01s)
    ∗ cellInv ER (sched xbf xg rs rr) (κ (dcell c rsR10s)) (dcell c rsR10s)
    ∗ cellInv ER (sched xbf xg rs rr) (κ (dcell c rsR11s)) (dcell c rsR11s)
    ∗ cellInv ER (sched xbf xg rs rr) (κ (dcell c rsR20s)) (dcell c rsR20s)
    ∗ cellInv ER (sched xbf xg rs rr) (κ (dcell c rsR21s)) (dcell c rsR21s))

def invsPeer (κ : GSem nD τ sig → ℕ) (c : Dev nD) : sProp 𝕄 :=
  iprop(cellInv ER (sched xbf xg rs rr) (κ (barCell (sh c 1))) (barCell (sh c 1))
    ∗ cellInv ER (sched xbf xg rs rr) (κ (barCell (sh c 2))) (barCell (sh c 2))
    ∗ cellInv ER (sched xbf xg rs rr) (κ (barCell (sh c 3))) (barCell (sh c 3))
    ∗ cellInv ER (sched xbf xg rs rr) (κ (dcell (sh c 1) agR0)) (dcell (sh c 1) agR0)
    ∗ cellInv ER (sched xbf xg rs rr) (κ (dcell (sh c 3) agR2)) (dcell (sh c 3) agR2)
    ∗ cellInv ER (sched xbf xg rs rr) (κ (dcell (sh c 2) agR1)) (dcell (sh c 2) agR1)
    ∗ cellInv ER (sched xbf xg rs rr) (κ (dcell (sh c 3) rsR00s)) (dcell (sh c 3) rsR00s)
    ∗ cellInv ER (sched xbf xg rs rr) (κ (dcell (sh c 3) rsR01s)) (dcell (sh c 3) rsR01s)
    ∗ cellInv ER (sched xbf xg rs rr) (κ (dcell (sh c 1) rsR20s)) (dcell (sh c 1) rsR20s)
    ∗ cellInv ER (sched xbf xg rs rr) (κ (dcell (sh c 1) rsR21s)) (dcell (sh c 1) rsR21s)
    ∗ cellInv ER (sched xbf xg rs rr) (κ (dcell (sh c 2) rsR10s)) (dcell (sh c 2) rsR10s)
    ∗ cellInv ER (sched xbf xg rs rr) (κ (dcell (sh c 2) rsR11s)) (dcell (sh c 2) rsR11s))

def posOwn (c : Dev nD) : sProp 𝕄 :=
  iprop(atPos ER (barCell c) 0 ∅ 0
    ∗ atPos ER (dcell c agS0) 0 ∅ 0
    ∗ atPos ER (dcell c agS1) 0 ∅ 0
    ∗ atPos ER (dcell c agS2) 0 ∅ 0
    ∗ atPos ER (dcell c agR0) 0 ∅ 0
    ∗ atPos ER (dcell c agR1) 0 ∅ 0
    ∗ atPos ER (dcell c agR2) 0 ∅ 0
    ∗ atPos ER (dcell c rsS00s) 0 ∅ 0
    ∗ atPos ER (dcell c rsS01s) 0 ∅ 0
    ∗ atPos ER (dcell c rsS10s) 0 ∅ 0
    ∗ atPos ER (dcell c rsS11s) 0 ∅ 0
    ∗ atPos ER (dcell c rsS20s) 0 ∅ 0
    ∗ atPos ER (dcell c rsS21s) 0 ∅ 0
    ∗ atPos ER (dcell c rsR00s) 0 ∅ 0
    ∗ atPos ER (dcell c rsR01s) 0 ∅ 0
    ∗ atPos ER (dcell c rsR10s) 0 ∅ 0
    ∗ atPos ER (dcell c rsR11s) 0 ∅ 0
    ∗ atPos ER (dcell c rsR20s) 0 ∅ 0
    ∗ atPos ER (dcell c rsR21s) 0 ∅ 0)

def reachedAll (c : Dev nD) : sProp 𝕄 :=
  iprop(reached ER (barCell c) 0
    ∗ reached ER (dcell c agS0) 0
    ∗ reached ER (dcell c agS1) 0
    ∗ reached ER (dcell c agS2) 0
    ∗ reached ER (dcell c agR0) 0
    ∗ reached ER (dcell c agR1) 0
    ∗ reached ER (dcell c agR2) 0
    ∗ reached ER (dcell c rsS00s) 0
    ∗ reached ER (dcell c rsS01s) 0
    ∗ reached ER (dcell c rsS10s) 0
    ∗ reached ER (dcell c rsS11s) 0
    ∗ reached ER (dcell c rsS20s) 0
    ∗ reached ER (dcell c rsS21s) 0
    ∗ reached ER (dcell c rsR00s) 0
    ∗ reached ER (dcell c rsR01s) 0
    ∗ reached ER (dcell c rsR10s) 0
    ∗ reached ER (dcell c rsR11s) 0
    ∗ reached ER (dcell c rsR20s) 0
    ∗ reached ER (dcell c rsR21s) 0
    ∗ reached ER (barCell (sh c 1)) 0
    ∗ reached ER (barCell (sh c 2)) 0
    ∗ reached ER (barCell (sh c 3)) 0
    ∗ reached ER (dcell (sh c 1) agR0) 0
    ∗ reached ER (dcell (sh c 3) agR2) 0
    ∗ reached ER (dcell (sh c 2) agR1) 0
    ∗ reached ER (dcell (sh c 3) rsR00s) 0
    ∗ reached ER (dcell (sh c 3) rsR01s) 0
    ∗ reached ER (dcell (sh c 1) rsR20s) 0
    ∗ reached ER (dcell (sh c 1) rsR21s) 0
    ∗ reached ER (dcell (sh c 2) rsR10s) 0
    ∗ reached ER (dcell (sh c 2) rsR11s) 0)

def payToks (c : Dev nD) : sProp 𝕄 :=
  iprop(dutyTok ER (barCell (sh c 1)) 0 (1 : Fin 4)
    ∗ dutyTok ER (barCell (sh c 2)) 0 (2 : Fin 4)
    ∗ dutyTok ER (barCell (sh c 3)) 0 (3 : Fin 4)
    ∗ dutyTok ER (dcell c agS0) 0 (0 : Fin 4)
    ∗ dutyTok ER (dcell c agS1) 0 (0 : Fin 4)
    ∗ dutyTok ER (dcell c agS2) 0 (0 : Fin 4)
    ∗ dutyTok ER (dcell c rsS00s) 0 (0 : Fin 4)
    ∗ dutyTok ER (dcell c rsS01s) 0 (0 : Fin 4)
    ∗ dutyTok ER (dcell c rsS10s) 0 (0 : Fin 4)
    ∗ dutyTok ER (dcell c rsS11s) 0 (0 : Fin 4)
    ∗ dutyTok ER (dcell c rsS20s) 0 (0 : Fin 4)
    ∗ dutyTok ER (dcell c rsS21s) 0 (0 : Fin 4)
    ∗ dutyTok ER (dcell (sh c 1) agR0) 0 (0 : Fin 4)
    ∗ dutyTok ER (dcell (sh c 3) agR2) 0 (0 : Fin 4)
    ∗ dutyTok ER (dcell (sh c 2) agR1) 0 (0 : Fin 4)
    ∗ dutyTok ER (dcell (sh c 3) rsR00s) 0 (0 : Fin 4)
    ∗ dutyTok ER (dcell (sh c 3) rsR01s) 0 (0 : Fin 4)
    ∗ dutyTok ER (dcell (sh c 1) rsR20s) 0 (0 : Fin 4)
    ∗ dutyTok ER (dcell (sh c 1) rsR21s) 0 (0 : Fin 4)
    ∗ dutyTok ER (dcell (sh c 2) rsR10s) 0 (0 : Fin 4)
    ∗ dutyTok ER (dcell (sh c 2) rsR11s) 0 (0 : Fin 4))

def ghost (κ : GSem nD τ sig → ℕ) (c : Dev nD) : sProp 𝕄 :=
  iprop(invsOwn xbf xg rs rr κ c ∗ invsPeer xbf xg rs rr κ c ∗ posOwn c ∗ reachedAll c ∗ payToks c)

variable (m : (ℓ : Loc nD τ sig) → Buf (Elt F) ℓ) (ρ : Dev nD → PrngReg)

def creds (c : Dev nD) : sProp 𝕄 :=
  iprop(cred (tallyAt (barCell c) () 3)
    ∗ cred (tallyAt (dcell c agR0) () Nag)
    ∗ cred (tallyAt (dcell c agR1) () Nag)
    ∗ cred (tallyAt (dcell c agR2) () Nag)
    ∗ cred (tallyAt (dcell c rsR00s) () Nrs)
    ∗ cred (tallyAt (dcell c rsR01s) () Nrs)
    ∗ cred (tallyAt (dcell c rsR10s) () Nrs)
    ∗ cred (tallyAt (dcell c rsR11s) () Nrs)
    ∗ cred (tallyAt (dcell c rsR20s) () Nrs)
    ∗ cred (tallyAt (dcell c rsR21s) () Nrs))

def ldZero (c : Dev nD) : sProp 𝕄 :=
  iprop(semVal (dcell c ld0) 0
    ∗ semVal (dcell c ld1) 0
    ∗ semVal (dcell c ld2) 0
    ∗ semVal (dcell c ld3) 0
    ∗ semVal (dcell c ld4) 0)

def argsAt (c : Dev nD) : sProp 𝕄 :=
  iprop(pts c (Memref.whole main_arg0) fullShare (m ((c : Thread nD τ).loc main_arg0))
    ∗ pts c (Memref.whole main_arg1) fullShare (m ((c : Thread nD τ).loc main_arg1))
    ∗ pts c (Memref.whole main_arg2) fullShare (m ((c : Thread nD τ).loc main_arg2))
    ∗ pts c (Memref.whole main_arg3) fullShare (m ((c : Thread nD τ).loc main_arg3))
    ∗ pts c (Memref.whole main_arg4) fullShare (m ((c : Thread nD τ).loc main_arg4)))

def scratch (c : Dev nD) : sProp 𝕄 :=
  iprop((∃ f, pts c M6 fullShare f)
    ∗ (∃ f, pts c M7 fullShare f)
    ∗ (∃ f, pts c M8 fullShare f)
    ∗ (∃ f, pts c M9 fullShare f)
    ∗ (∃ f, pts c M10 fullShare f)
    ∗ (∃ f, pts c M11 fullShare f)
    ∗ (∃ f, pts c M12 fullShare f))

def dmaZero (c : Dev nD) : sProp 𝕄 :=
  iprop(semVal (dcell c ld0) 0
    ∗ semVal (dcell c ld1) 0
    ∗ semVal (dcell c ld2) 0
    ∗ semVal (dcell c ld3) 0
    ∗ semVal (dcell c ld4) 0
    ∗ semVal (dcell c agS0) 0
    ∗ semVal (dcell c agS1) 0
    ∗ semVal (dcell c agS2) 0
    ∗ semVal (dcell c agR0) 0
    ∗ semVal (dcell c agR1) 0
    ∗ semVal (dcell c agR2) 0
    ∗ semVal (dcell c rsS00s) 0
    ∗ semVal (dcell c rsS01s) 0
    ∗ semVal (dcell c rsS10s) 0
    ∗ semVal (dcell c rsS11s) 0
    ∗ semVal (dcell c rsS20s) 0
    ∗ semVal (dcell c rsS21s) 0
    ∗ semVal (dcell c rsR00s) 0
    ∗ semVal (dcell c rsR01s) 0
    ∗ semVal (dcell c rsR10s) 0
    ∗ semVal (dcell c rsR11s) 0
    ∗ semVal (dcell c rsR20s) 0
    ∗ semVal (dcell c rsR21s) 0)

def start (c : Dev nD) : sProp 𝕄 :=
  iprop((∃ κ, ghost xbf xg rs rr κ c) ∗ creds c ∗ levAts L lv ∗ ldZero c ∗ argsAt m c
    ∗ (∃ f, pts c (Memref.whole main_v1) fullShare f))

def Φ₀ (c : Dev nD) : sProp 𝕄 := iprop(start xbf xg rs rr m c ∗ scratch c)

def Φ₁ (c : Dev nD) : sProp 𝕄 :=
  iprop(argsAt m c ∗ pts c (Memref.whole main_v1) fullShare (outc c) ∗ scratch c ∗ dmaZero c)

def dats (_ : Fin 1) (c : Dev nD) : Dat τ (Elt F) Unit ℕ UU ℕ cfg0 c where
  A w := w.elim0
  after w _ := w.elim0
  Φ t := match t with
    | ⟨0, _⟩ => Φ₀ xbf xg rs rr m c
    | ⟨_ + 1, _⟩ => Φ₁ outc m c
  q _ := fullShare
  owed t := match t with
    | ⟨0, _⟩ => O₀ c
    | ⟨_ + 1, _⟩ => 0

def BodyGoal (c : Dev nD) : Prop :=
  iprop(Φ₀ xbf xg rs rr m c ∗ (dats xbf xg rs rr outc m 0 c).owesAt () t0_0.castSucc)
    ⊢ wp frame (wpE (defs₀ (F := F)) Variants.none c none) Set.univ (Gen.bodyAt0 (F := F) t0_0)
        (fun _ => iprop(Φ₁ outc m c ∗ (dats xbf xg rs rr outc m 0 c).owesAt () t0_0.succ))

end Cert.KernelIdeal.Iface

end
-- ==== Proof.Launch.lean ====
import proofs.«900515_g7700000000000516_dist_attn_self_mha_htp_bs_b1_sq256_skv256_d1024_hq8_dh128_v7x_i4_bf16_1_alg».proof.Proof.Iface

noncomputable section

namespace Cert.KernelIdeal.Launch

open Cert.KernelIdeal Cert.KernelIdeal.Gen Cert.KernelIdeal.Proto Cert.KernelIdeal.Iface

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev osem : Fin 23 → SemLoc sig := fun k => .dma k

theorem ownSemFacts : Pipeline.OwnSemFacts cfg0.spec osem := by decide

abbrev csem : Fin 19 → SemLoc sig := fun
  | ⟨0, _⟩ => .reg barS
  | ⟨1, _⟩ => .dma agS0
  | ⟨2, _⟩ => .dma agS1
  | ⟨3, _⟩ => .dma agS2
  | ⟨4, _⟩ => .dma agR0
  | ⟨5, _⟩ => .dma agR1
  | ⟨6, _⟩ => .dma agR2
  | ⟨7, _⟩ => .dma rsS00s
  | ⟨8, _⟩ => .dma rsS01s
  | ⟨9, _⟩ => .dma rsS10s
  | ⟨10, _⟩ => .dma rsS11s
  | ⟨11, _⟩ => .dma rsS20s
  | ⟨12, _⟩ => .dma rsS21s
  | ⟨13, _⟩ => .dma rsR00s
  | ⟨14, _⟩ => .dma rsR01s
  | ⟨15, _⟩ => .dma rsR10s
  | ⟨16, _⟩ => .dma rsR11s
  | ⟨17, _⟩ => .dma rsR20s
  | ⟨18, _⟩ => .dma rsR21s
  | ⟨_ + 19, h⟩ => absurd h (by omega)

abbrev kcell (ck : Dev nD × Fin 19) : GSem nD τ sig := ((ck.1 : Thread nD τ), csem ck.2)

theorem csem_inj : ∀ a b : Fin 19, csem a = csem b → a = b := by decide

theorem kcell_injective : Function.Injective (kcell : Dev nD × Fin 19 → GSem nD τ sig) := fun a b h =>
  Prod.ext (congrArg (·.1.1) h) (csem_inj _ _ (congrArg Prod.snd h))

def protoCells : Finset (GSem nD τ sig) := Finset.univ.map ⟨kcell, kcell_injective⟩

-- Token `j` of device `c`, in the order `payToks c` lists them: duty `tduty j` on cell `tcell j` of device `tdev c j`.
def tcell : Fin 21 → Fin 19 := ![0, 0, 0, 1, 2, 3, 7, 8, 9, 10, 11, 12, 4, 6, 5, 13, 14, 17, 18, 15, 16]
def tduty (j : Fin 21) : Fin 4 := if h : j.val < 3 then ⟨j.val + 1, by omega⟩ else 0
def tsh : Fin 21 → ℕ := ![1, 2, 3, 0, 0, 0, 0, 0, 0, 0, 0, 0, 1, 3, 2, 3, 3, 1, 1, 2, 2]
def tdev (c : Dev nD) (j : Fin 21) : Dev nD := if tsh j = 0 then c else sh c (tsh j)

abbrev tokOf (cj : Dev nD × Fin 21) : GSem nD τ sig × ℕ × Fin 4 := (kcell (tdev cj.1 cj.2, tcell cj.2), 0, tduty cj.2)

theorem tok_inj : ∀ j j' : Fin 21, tcell j = tcell j' → tduty j = tduty j' → j = j' := by decide
theorem tdev_inj : ∀ (j : Fin 21) (c c' : Dev nD), tdev c j = tdev c' j → c = c' := by decide

theorem tokOf_injective : Function.Injective (tokOf : Dev nD × Fin 21 → GSem nD τ sig × ℕ × Fin 4) := fun a b h => by
  have hk := kcell_injective (congrArg (·.1) h)
  have hj : a.2 = b.2 := tok_inj _ _ (congrArg Prod.snd hk) (congrArg (·.2.2) h)
  have hc := congrArg Prod.fst hk
  rw [← hj] at hc
  exact Prod.ext (tdev_inj _ _ _ hc) hj

def protoToks : Finset (GSem nD τ sig × ℕ × Fin 4) := Finset.univ.map ⟨tokOf, tokOf_injective⟩

def u₀ : UU :=
  (initOf (Pipeline.cells cfgs cellOf_inj) (Pipeline.launchToks cfgs cellOf_inj), (initOf protoCells protoToks, 1))

omit [FloatOps F] in
theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

-- Adding `a` and then `b` modulo 4 is the identity when `a + b = 4`.
theorem sh_inv {a b : ℕ} (h : a + b = 4) (c : Dev nD) : sh (sh c a) b = c := by rw [sh_sh, h, sh_four]

variable (xbf : (c : Dev nD) → Buf (Elt F) ((c : Thread nD τ).loc cc0_scratch2))
  (xg : (c : Dev nD) → Buf (Elt F) ((c : Thread nD τ).loc cc0_scratch3))
  (rs : (c : Dev nD) → Buf (Elt F) ((c : Thread nD τ).loc cc0_scratch4))
  (rr : (c : Dev nD) → Buf (Elt F) ((c : Thread nD τ).loc cc0_scratch5))
  (outc : (c : Dev nD) → Buf (Elt F) ((c : Thread nD τ).loc main_v1))
  (m : (ℓ : Loc nD τ sig) → Buf (Elt F) ℓ) (ρ : Dev nD → PrngReg)

def G (c : Dev nD) : sProp 𝕄 :=
  iprop((bigSep Finset.univ fun k : Fin 19 => roundState ER (sched xbf xg rs rr) (kcell (c, k)) 0)
    ∗ (bigSep Finset.univ fun k : Fin 19 => iprop(atPos ER (kcell (c, k)) 0 ∅ 0 ∗ reached ER (kcell (c, k)) 0)) ∗ payToks c)

def G' (c : Dev nD) : sProp 𝕄 := iprop((∃ κ, ghost xbf xg rs rr κ c) ∗ ldZero c)

theorem fund : BI.own (ER (initOf protoCells protoToks)) ⊢ (|==> bigSep Finset.univ (G xbf xg rs rr) : sProp 𝕄) := by
  have hX (Φ : GSem nD τ sig → sProp 𝕄) : bigSep protoCells Φ = bigSep Finset.univ fun c : Dev nD => bigSep Finset.univ fun k : Fin 19 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => payToks c := by
    unfold protoToks; rw [bigSep_map, bigSep_univ_prod]
    exact bigSep_congr fun c _ => by
      unfold payToks; rw [bigSep_univ_eq_bigSepL [0, 1, 2, 3, 4, 5, 6, 7, 8, 9, 10, 11, 12, 13, 14, 15, 16, 17, 18, 19, 20] (by decide) (by decide)]; rfl
  have h := Rounds.fund ER (sched xbf xg rs rr) protoCells protoToks
  rw [hX, hX, hX, hT] at h
  unfold G; simp only [bigSep_sep']
  iintro HX
  imod h $$ HX with ⟨Hst, Hr, Hat, Htok⟩
  imodintro
  iframe

omit [FloatOps F] in
theorem ownSems0_eq (c : Dev nD) : (Pipeline.ownSems0 osem c : sProp 𝕄) = dmaZero c := by
  rw [Pipeline.ownSems0_eq_of_list c osem [0, 1, 2, 3, 4, 5, 6, 7, 8, 9, 10, 11, 12, 13, 14, 15, 16, 17, 18, 19, 20, 21, 22] (by decide) (by decide)]; rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

def Gm (c : Dev nD) : sProp 𝕄 :=
  iprop((bigSep Finset.univ fun k => iprop(∃ κ : ℕ, cellInv ER (sched xbf xg rs rr) κ (kcell (c, k))))
    ∗ (bigSep Finset.univ fun k => iprop(atPos ER (kcell (c, k)) 0 ∅ 0 ∗ reached ER (kcell (c, k)) 0)) ∗ payToks c ∗ ldZero c)

theorem core_alloc (c : Dev nD) :
    iprop(Pipeline.ownSems0 osem c ∗ unscopedSems0 c ∗ G xbf xg rs rr c)
      ⊢ |={Set.univ}=> Gm xbf xg rs rr c := by
  rw [ownSems0_eq, unscopedSems0_eq]; unfold G Gm dmaZero ldZero
  iintro ⟨⟨L0, L1, L2, L3, L4, D⟩, HB, Hst, Hat, Htok⟩
  ihave Hv := (Entails.of_eq (bigSep_fin19 fun k => (semVal (kcell (c, k)) 0 : sProp 𝕄)).symm) $$ [HB D]; · iframe
  imod ((Entails.of_eq (bigSep_sep' _ _ _).symm).trans ((bigSep_mono (s := Finset.univ) fun k _ =>
    (Rounds.body_intro ER (sched xbf xg rs rr) (kcell (c, k))).trans inv_alloc).trans (bigSep_fupd _ _))) $$ [Hv Hst] with Hinv
  · iframe
  imodintro
  iframe

def records (K : Dev nD × Fin 19 → ℕ) : sProp 𝕄 :=
  iprop((bigSep Finset.univ fun ck : Dev nD × Fin 19 => cellInv ER (sched xbf xg rs rr) (K ck) (kcell ck))
    ∗ bigSep Finset.univ fun ck : Dev nD × Fin 19 => reached ER (kcell ck) 0)

instance records_persistent (K : Dev nD × Fin 19 → ℕ) : BI.Persistent (records xbf xg rs rr K) := by unfold records; infer_instance

def κof (K : Dev nD × Fin 19 → ℕ) : GSem nD τ sig → ℕ := Function.extend kcell K (fun _ => 0)

omit [FloatOps F] in
theorem κof_kcell (K : Dev nD × Fin 19 → ℕ) (ck : Dev nD × Fin 19) : κof K (kcell ck) = K ck :=
  kcell_injective.extend_apply K _ ck

theorem inv_cell (K : Dev nD × Fin 19 → ℕ) (ck : Dev nD × Fin 19) :
    records xbf xg rs rr K ⊢ cellInv ER (sched xbf xg rs rr) (κof K (kcell ck)) (kcell ck) := by
  rw [κof_kcell]; unfold records
  exact sep_elim_left.trans (bigSep_elim (Finset.mem_univ ck))

theorem reached_cell (K : Dev nD × Fin 19 → ℕ) (ck : Dev nD × Fin 19) : records xbf xg rs rr K ⊢ reached ER (kcell ck) 0 := by
  unfold records; exact sep_elim_right.trans (bigSep_elim (Finset.mem_univ ck))

-- A persistent fact that yields every listed instance yields their whole chain.
omit [FloatOps F] in
theorem sepL_intro {I : Type} {R : sProp 𝕄} [BI.Persistent R] {Φ : I → sProp 𝕄} (h : ∀ i, R ⊢ Φ i) : ∀ l : List I, R ⊢ bigSepL l Φ
  | [] => by iintro -; iempintro
  | i :: l => by
    rw [bigSepL_cons]; show R ⊢ iprop(Φ i ∗ bigSepL l Φ)
    iintro #H; isplitr
    · iapply h i; iexact H
    · iapply sepL_intro h l; iexact H

abbrev own (c : Dev nD) : List (Dev nD × Fin 19) :=
  [(c, 0), (c, 1), (c, 2), (c, 3), (c, 4), (c, 5), (c, 6), (c, 7), (c, 8), (c, 9), (c, 10), (c, 11), (c, 12), (c, 13), (c, 14), (c, 15), (c, 16), (c, 17), (c, 18)]

abbrev peers (c : Dev nD) : List (Dev nD × Fin 19) :=
  [(sh c 1, 0), (sh c 2, 0), (sh c 3, 0), (sh c 1, 4), (sh c 3, 6), (sh c 2, 5), (sh c 3, 13), (sh c 3, 14), (sh c 1, 17), (sh c 1, 18), (sh c 2, 15), (sh c 2, 16)]

def linear (c : Dev nD) : sProp 𝕄 := iprop(posOwn c ∗ payToks c ∗ ldZero c)

theorem ghost_intro (K : Dev nD × Fin 19 → ℕ) (c : Dev nD) : iprop(records xbf xg rs rr K ∗ linear c) ⊢ G' xbf xg rs rr c := by
  have hO : records xbf xg rs rr K ⊢ invsOwn xbf xg rs rr (κof K) c := sepL_intro (inv_cell xbf xg rs rr K) (own c)
  have hP : records xbf xg rs rr K ⊢ invsPeer xbf xg rs rr (κof K) c := sepL_intro (inv_cell xbf xg rs rr K) (peers c)
  have hR : records xbf xg rs rr K ⊢ reachedAll c := sepL_intro (reached_cell xbf xg rs rr K) (own c ++ peers c)
  unfold linear G' ghost
  iintro ⟨#HR, Hpos, Htok, Hld⟩
  iframe Hld
  iexists (κof K)
  iframe Hpos Htok
  isplitr; · iapply hO; iexact HR
  isplitr; · iapply hP; iexact HR
  iapply hR; iexact HR

omit [FloatOps F] in
theorem posOwn_eq (c : Dev nD) : (bigSep Finset.univ fun k : Fin 19 => (atPos ER (kcell (c, k)) 0 ∅ 0 : sProp 𝕄)) = posOwn c := by
  unfold posOwn; rw [bigSep_fin19]

theorem regroup : (bigSep Finset.univ (Gm xbf xg rs rr) : sProp 𝕄) ⊢ bigSep Finset.univ (G' xbf xg rs rr) := by
  unfold Gm
  simp only [bigSep_sep', posOwn_eq]
  rw [← bigSep_univ_prod (fun ck : Dev nD × Fin 19 => iprop(∃ κ : ℕ, cellInv ER (sched xbf xg rs rr) κ (kcell ck))),
    ← bigSep_univ_prod (fun ck : Dev nD × Fin 19 => (reached ER (kcell ck) 0 : sProp 𝕄))]
  iintro ⟨HI, ⟨Hat, #HR⟩, Htok, Hld⟩
  icases (BI.bigSep_exists_pi Finset.univ (fun (ck : Dev nD × Fin 19) (κ : ℕ) => (cellInv ER (sched xbf xg rs rr) κ (kcell ck) : sProp 𝕄))) $$ HI with ⟨%K, #HI⟩
  iapply (bigSep_with_persistent (R := records xbf xg rs rr K) fun c _ => ghost_intro xbf xg rs rr K c)
  unfold records linear
  simp only [bigSep_sep']
  iframe # ∗

theorem glob : (bigSep Finset.univ fun c => iprop(Pipeline.ownSems0 osem c ∗ unscopedSems0 c ∗ G xbf xg rs rr c) : sProp 𝕄)
    ⊢ |={Set.univ}=> bigSep Finset.univ (G' xbf xg rs rr) :=
  ((bigSep_mono fun c _ => core_alloc xbf xg rs rr c).trans (bigSep_fupd _ _)).trans (BI.fupd_mono (regroup xbf xg rs rr))

-- If every device `d` owes `n` at `sm` of `sh d a`, then `c` holds the credit for `n` at its own `sm`, `sh · a` being a bijection.
omit [FloatOps F] in
theorem launchCred_ring (a b : ℕ) (h : a + b = 4) (sm : SemLoc sig) (n : ℕ) (c : Dev nD) :
    (Pipeline.launchCred (fun d : Dev nD => tallyAt (((sh d a : Dev nD) : Thread nD τ), sm) () n) c : sProp 𝕄) ⊢ cred (tallyAt ((c : Thread nD τ), sm) () n) :=
  Pipeline.launchCred_tallyAt sm (sh · a) (sh · b) (sh_inv ((Nat.add_comm b a).trans h)) (sh_inv h) () n c

omit [FloatOps F] in
theorem creds_of_launch (c : Dev nD) : (Pipeline.launchCred O₀ c : sProp 𝕄) ⊢ creds c := by
  unfold O₀ creds
  simp only [Pipeline.launchCred_add]
  iintro ⟨⟨⟨⟨⟨⟨⟨⟨⟨⟨⟨C0, C1⟩, C2⟩, C3⟩, C4⟩, C5⟩, C6⟩, C7⟩, C8⟩, C9⟩, C10⟩, C11⟩
  ihave C0 := launchCred_ring 2 2 rfl _ _ c $$ C0
  ihave C1 := launchCred_ring 2 2 rfl _ _ c $$ C1
  ihave C2 := launchCred_ring 1 3 rfl _ _ c $$ C2
  ihave C3 := launchCred_ring 1 3 rfl _ _ c $$ C3
  ihave C4 := launchCred_ring 3 1 rfl _ _ c $$ C4
  ihave C5 := launchCred_ring 3 1 rfl _ _ c $$ C5
  ihave C6 := launchCred_ring 2 2 rfl _ _ c $$ C6
  ihave C7 := launchCred_ring 3 1 rfl _ _ c $$ C7
  ihave C8 := launchCred_ring 1 3 rfl _ _ c $$ C8
  ihave C9 := launchCred_ring 3 1 rfl _ _ c $$ C9
  ihave C10 := launchCred_ring 2 2 rfl _ _ c $$ C10
  ihave C11 := launchCred_ring 1 3 rfl _ _ c $$ C11
  ihave B := (cred_add _ _).2 $$ [C9 C10]; · iframe
  ihave B := (cred_add _ _).2 $$ [B C11]; · iframe
  rw [tallyAt_add, tallyAt_add]
  iframe

omit [FloatOps F] in
theorem pts_whole {b : Ref sig .tc} (c : Dev nD) (q : PosShare TreeShare) (f : Buf (Elt F) ((c : Thread nD τ).loc b)) :
    (pts c (Memref.whole b) q f : sProp 𝕄) = (((c : Thread nD τ).loc b) ↦{q} f : sProp 𝕄) := by
  show ((Memref.whole b).view.loc (c : Thread nD τ) ↦[(Memref.whole b).view.set]{q} f : sProp 𝕄) = _
  rw [show (Memref.whole b).view.set = Finset.univ from View.set_whole _]

omit [FloatOps F] in
theorem ex_whole {b : Ref sig .tc} (c : Dev nD) :
    (iprop(∃ f, pts c (Memref.whole b) fullShare f) : sProp 𝕄) = iprop(∃ f, ((c : Thread nD τ).loc b) ↦{fullShare} f) := by
  simp only [pts_whole]

def Y (c : Dev nD) : sProp 𝕄 := iprop(argsAt m c ∗ pts c (Memref.whole main_v1) fullShare (outc c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' xbf xg rs rr c)
      ⊢ |={Set.univ}=> iprop(start xbf xg rs rr m c ∗ emp) := by
  rw [Pipeline.unscopedRestP_none, unscopedRest0_eq]
  unfold G' start argsAt
  rw [pts_whole, pts_whole, pts_whole, pts_whole, pts_whole]
  iintro ⟨⟨A0, A1, A2, A3, A4, V1⟩, Hlev, Hcr, -, HG, Hld⟩
  ihave Hc := (creds_of_launch (F := F) c) $$ Hcr
  imodintro
  iframe
  iexists _; rw [pts_whole]; iexact V1

theorem phi0_intro (c : Dev nD) :
    iprop(start xbf xg rs rr m c ∗ Pipeline.prefHeld Pipeline.Prefetch.none c (fun _ => fullShare.right) (fun k => k.elim0) ∗ Pipeline.scopedRest cfg0.spec c)
      ⊢ (dats xbf xg rs rr outc m 0 c).Φ 0 := by
  show _ ⊢ Φ₀ xbf xg rs rr m c
  rw [scopedRest0_eq]; unfold Φ₀ scratch
  rw [ex_whole, ex_whole, ex_whole, ex_whole, ex_whole, ex_whole, ex_whole]
  iintro ⟨Hs, -, H⟩
  iframe

theorem phi1_exit (c : Dev nD) :
    (dats xbf xg rs rr outc m 0 c).Φ (Fin.last cfg0.N) ⊢ iprop(Y outc m c ∗ Pipeline.ownSems0 osem c ∗ Pipeline.scopedRest cfg0.spec c) := by
  show Φ₁ outc m c ⊢ _
  rw [scopedRest0_eq, ownSems0_eq]; unfold Φ₁ Y scratch
  rw [ex_whole, ex_whole, ex_whole, ex_whole, ex_whole, ex_whole, ex_whole]
  iintro ⟨Ha, Hv, Hs, Hz⟩
  iframe

theorem waits (c : Dev nD) : (levAts L lv : sProp 𝕄) ⊢ Pipeline.cellsWaits cfgs (dats xbf xg rs rr outc m) () 0 c :=
  Pipeline.cellsWaits_intro cfgs (dats xbf xg rs rr outc m) () 0 c fun w => w.elim0

omit [FloatOps F] in
theorem bigSep_fin0 (Φ : Fin cfg0.W → sProp 𝕄) : bigSep Finset.univ Φ = iprop(emp) := rfl

theorem body_obligation (hbody : ∀ c, BodyGoal xbf xg rs rr outc m c) (c : Dev nD) :
    BodyObligation (dats (F := F) xbf xg rs rr outc m 0 c) (defs₀ (F := F)) Variants.none () Set.univ := fun t => by
  rw [fin_N0 t, bigSep_fin0, bigSep_fin0]
  show iprop(Φ₀ xbf xg rs rr m c ∗ (dats xbf xg rs rr outc m 0 c).owesAt () t0_0.castSucc ∗ emp)
    ⊢ wp frame (wpE (defs₀ (F := F)) Variants.none c none) Set.univ (Gen.bodyAt0 (F := F) t0_0)
        (fun _ => iprop(Φ₁ outc m c ∗ (dats xbf xg rs rr outc m 0 c).owesAt () t0_0.succ ∗ emp))
  have hb := hbody c
  unfold BodyGoal at hb
  iintro ⟨HΦ, Ho, -⟩
  iapply (wp_mono _ _ _ fun _ => sep_mono_right sep_emp.2)
  iapply hb; iframe

theorem run_main (hbody : ∀ c, BodyGoal xbf xg rs rr outc m c) :
    θ_run defs (onTc (τ := τ) (main (F := F))) ⟨m, fun _ => 0, ρ⟩ (fun r => ∀ c : Dev nD,
      r.2.mem ((c.tc : Thread nD τ).loc main_v1) = outc c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_owing_glob_pf (fun p => (cfgs p).toPCfg) (fun p => (cfgs p).toPCfg_adm) (dats xbf xg rs rr outc m) () cellOf_inj (0 : Fin 1)
    winFacts0.to₀ ownSemFacts (Pipeline.PreFacts.none _) EP defs₀ Variants.none m ρ main
    (hmain := fun _ => rfl)
    (hbody := body_obligation xbf xg rs rr outc m hbody) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits xbf xg rs rr outc m)
    (G := G xbf xg rs rr) (G' := G' xbf xg rs rr) (u₀ := u₀)
    (hu₀ := by
      unfold u₀
      iintro Hu
      icases (ownU_pair _ _) $$ Hu with ⟨HP, HX⟩
      icases (own_pair_emb embR _ _) $$ HX with ⟨HB, -⟩
      imod (fund xbf xg rs rr) $$ HB with HG
      imodintro
      iframe)
    (hglob := glob xbf xg rs rr)
    (hA := fun _ w => w.elim0) (hpf := fun _ k => k.elim0)
    (X := start xbf xg rs rr m) (Y := Y outc m) (Z := fun _ => iprop(emp))
    (hX := start_intro xbf xg rs rr m ρ) (hin := phi0_intro xbf xg rs rr outc m) (hout := phi1_exit xbf xg rs rr outc m)
    (QY := _)
    (hY := fun c s' => by
      unfold Y argsAt
      rw [pts_whole, pts_whole, pts_whole, pts_whole, pts_whole, pts_whole]
      iintro ⟨⟨⟨A0, A1, A2, A3, A4⟩, Hv⟩, -, HSI⟩
      icombine HSI Hv gives %hv
      icombine HSI A0 gives %h0
      icombine HSI A1 gives %h1
      icombine HSI A2 gives %h2
      icombine HSI A3 gives %h3
      icombine HSI A4 gives %h4
      imodintro
      isplitr
      · ipureintro
        exact ⟨Buf.eq_of_forall_mem_univ hv, Buf.eq_of_forall_mem_univ h0, Buf.eq_of_forall_mem_univ h1, Buf.eq_of_forall_mem_univ h2,
          Buf.eq_of_forall_mem_univ h3, Buf.eq_of_forall_mem_univ h4⟩
      iexact HSI)
    (hQ := fun _ h c => (h c).2.2)

end Cert.KernelIdeal.Launch

end
-- ==== Proof.Glue.lean ====
import proofs.«900515_g7700000000000516_dist_attn_self_mha_htp_bs_b1_sq256_skv256_d1024_hq8_dh128_v7x_i4_bf16_1_alg».proof.Proof.Proto
import Idealize.ShloMosaic.Rules.PointsTo
import Idealize.ShloMosaic.Lib.ValueIdx

noncomputable section

namespace Cert.KernelIdeal.Glue

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

section Slabs
variable {n k a b : ℕ}

/-- Slab `i` of an `n × a × b` array along its leading axis. -/
abbrev slab3 (i : ℕ) (hi : i < n := by decide) : Rect ⟨3, ![n, a, b]⟩ :=
  Rect.unit ![i, 0, 0] ![1, a, b] fun d => by
    match d with
    | ⟨0, _⟩ => exact hi
    | ⟨1, _⟩ => exact (Nat.zero_add a).le
    | ⟨2, _⟩ => exact (Nat.zero_add b).le

theorem emb_slab3 (i : ℕ) (hi : i < n) (y : (slab3 (a := a) (b := b) i hi).shape.Idx) :
    (slab3 i hi).emb y = ix3 ⟨i, hi⟩ (y 1) (y 2) := by
  funext d; apply Fin.ext; rw [Rect.emb_apply]
  have h0 : (y 0).val < 1 := (y 0).isLt
  match d with
  | ⟨0, _⟩ => show i + 1 * (y 0).val = i; omega
  | ⟨1, _⟩ => show 0 + 1 * (y 1).val = (y 1).val; omega
  | ⟨2, _⟩ => show 0 + 1 * (y 2).val = (y 2).val; omega

theorem mem_slab3 (i : ℕ) (hi : i < n) (j : (⟨3, ![n, a, b]⟩ : Shape).Idx) :
    j ∈ (slab3 i hi).set ↔ (j 0).val = i := by
  rw [← Rect.map_emb_univ, Finset.mem_map]
  constructor
  · rintro ⟨y, -, rfl⟩; exact congrArg (fun z => (z 0).val) (emb_slab3 i hi y)
  · intro h; subst h
    exact ⟨ix3 0 (j 1) (j 2), Finset.mem_univ _, (emb_slab3 _ hi _).trans (eq_ix3 j).symm⟩

/-- Slab `(i, h)` of an `n × k × a × b` array along its two leading axes. -/
abbrev slab4 (i h : ℕ) (hi : i < n := by decide) (hh : h < k := by decide) : Rect ⟨4, ![n, k, a, b]⟩ :=
  Rect.unit ![i, h, 0, 0] ![1, 1, a, b] fun d => by
    match d with
    | ⟨0, _⟩ => exact hi
    | ⟨1, _⟩ => exact hh
    | ⟨2, _⟩ => exact (Nat.zero_add a).le
    | ⟨3, _⟩ => exact (Nat.zero_add b).le

theorem emb_slab4 (i h : ℕ) (hi : i < n) (hh : h < k) (y : (slab4 (a := a) (b := b) i h hi hh).shape.Idx) :
    (slab4 i h hi hh).emb y = ix4 ⟨i, hi⟩ ⟨h, hh⟩ (y 2) (y 3) := by
  funext d; apply Fin.ext; rw [Rect.emb_apply]
  have h0 : (y 0).val < 1 := (y 0).isLt
  have h1 : (y 1).val < 1 := (y 1).isLt
  match d with
  | ⟨0, _⟩ => show i + 1 * (y 0).val = i; omega
  | ⟨1, _⟩ => show h + 1 * (y 1).val = h; omega
  | ⟨2, _⟩ => show 0 + 1 * (y 2).val = (y 2).val; omega
  | ⟨3, _⟩ => show 0 + 1 * (y 3).val = (y 3).val; omega

theorem mem_slab4 (i h : ℕ) (hi : i < n) (hh : h < k) (j : (⟨4, ![n, k, a, b]⟩ : Shape).Idx) :
    j ∈ (slab4 i h hi hh).set ↔ (j 0).val = i ∧ (j 1).val = h := by
  rw [← Rect.map_emb_univ, Finset.mem_map]
  constructor
  · rintro ⟨y, -, rfl⟩
    exact ⟨congrArg (fun z => (z 0).val) (emb_slab4 i h hi hh y), congrArg (fun z => (z 1).val) (emb_slab4 i h hi hh y)⟩
  · rintro ⟨e0, e1⟩; subst e0; subst e1
    exact ⟨ix4 0 0 (j 2) (j 3), Finset.mem_univ _, (emb_slab4 _ _ hi hh _).trans (eq_ix4 j).symm⟩

end Slabs

abbrev xgS (i : ℕ) (hi : i < 3 := by decide) : Memref sig .tc .vmem S256x1024 .bf16 :=
  (M9.slice (slab3 i hi) fun _ => rfl).squeeze S256x1024 squeezes_S1x256x1024_S256x1024

abbrev w32S (i : ℕ) (hi : i < 4 := by decide) : Memref sig .tc .vmem S1024x1024 .f32 :=
  (M7.slice (slab3 i hi) fun _ => rfl).squeeze S1024x1024 squeezes_S1x1024x1024_S1024x1024

abbrev slotQ (M : Memref sig .tc .vmem S3x2x128x1024 .bf16) (i h : ℕ) (hi : i < 3 := by decide) (hh : h < 2 := by decide) :
    Memref sig .tc .vmem S128x1024 .bf16 :=
  (M.slice (slab4 i h hi hh) fun _ => rfl).squeeze S128x1024 squeezes_S1x1x128x1024_S128x1024

abbrev w32S0 : Memref sig .tc .vmem S1024x1024 .f32 := w32S 0
abbrev w32S1 : Memref sig .tc .vmem S1024x1024 .f32 := w32S 1
abbrev w32S2 : Memref sig .tc .vmem S1024x1024 .f32 := w32S 2
abbrev w32S3 : Memref sig .tc .vmem S1024x1024 .f32 := w32S 3

/-- A squeezed slice of a whole buffer covers the slice's rectangle. -/
theorem set_slot {κ : Kind} (b : Ref sig κ) (r : Rect b.ty.shape) (hr : ∀ a, r.stride a = 1) (S : Shape)
    (sq : r.shape.Squeezes S) : (((Memref.whole b).slice r hr).squeeze S sq).view.set = r.set :=
  (View.set_reshape _ _).trans (View.set_slice_whole _ _)

theorem split9 (c : Dev nD) (q : PosShare TreeShare) (f : Buf (Elt F) (M9.view.loc (c : Thread nD τ))) :
    (pts c M9 q f : sProp 𝕄) ⊣⊢ iprop(pts c xgS0 q f ∗ pts c xgS1 q f ∗ pts c xgS2 q f) := by
  have e : (Finset.univ : Finset S3x256x1024.Idx) = (slab3 0).set ∪ ((slab3 1).set ∪ (slab3 2).set) := by
    ext j; have h0 : (j 0).val < 3 := (j 0).isLt
    simp (disch := decide) only [Finset.mem_univ, Finset.mem_union, mem_slab3, true_iff]; omega
  unfold pts; rw [set_slot, set_slot, set_slot, View.set_whole, e]
  refine (pointsTo_union ?_).trans (sep_congr .rfl (pointsTo_union ?_))
  all_goals exact Finset.disjoint_left.mpr fun j a b => by simp (disch := decide) only [Finset.mem_union, mem_slab3, mem_slab4] at a b; omega

theorem set_w32S (i : ℕ) (hi : i < 4 := by decide) : (w32S i hi).view.set = (slab3 i hi).set := set_slot _ _ _ _ _

theorem split7 (c : Dev nD) (q : PosShare TreeShare) (f : Buf (Elt F) (M7.view.loc (c : Thread nD τ))) :
    (pts c M7 q f : sProp 𝕄) ⊣⊢ iprop(pts c w32S0 q f ∗ pts c w32S1 q f ∗ pts c w32S2 q f ∗ pts c w32S3 q f) := by
  have e : (Finset.univ : Finset S4x1024x1024.Idx) = (slab3 0).set ∪ ((slab3 1).set ∪ ((slab3 2).set ∪ (slab3 3).set)) := by
    ext j; have h0 : (j 0).val < 4 := (j 0).isLt
    simp (disch := decide) only [Finset.mem_univ, Finset.mem_union, mem_slab3, true_iff]; omega
  unfold pts; rw [set_w32S 0, set_w32S 1, set_w32S 2, set_w32S 3, View.set_whole, e]
  refine (pointsTo_union ?_).trans (sep_congr .rfl ((pointsTo_union ?_).trans (sep_congr .rfl (pointsTo_union ?_))))
  all_goals exact Finset.disjoint_left.mpr fun j a b => by simp (disch := decide) only [Finset.mem_union, mem_slab3, mem_slab4] at a b; omega

theorem coverQ : (Finset.univ : Finset S3x2x128x1024.Idx) = (slab4 0 0).set ∪ ((slab4 0 1).set ∪ ((slab4 1 0).set ∪
    ((slab4 1 1).set ∪ ((slab4 2 0).set ∪ (slab4 2 1).set)))) := by
  ext j; have h0 : (j 0).val < 3 := (j 0).isLt; have h1 : (j 1).val < 2 := (j 1).isLt
  simp (disch := decide) only [Finset.mem_univ, Finset.mem_union, mem_slab4, true_iff]; omega

theorem split10 (c : Dev nD) (q : PosShare TreeShare) (f : Buf (Elt F) (M10.view.loc (c : Thread nD τ))) :
    (pts c M10 q f : sProp 𝕄) ⊣⊢ iprop(pts c rsS00 q f ∗ pts c rsS01 q f ∗ pts c rsS10 q f ∗ pts c rsS11 q f ∗ pts c rsS20 q f ∗ pts c rsS21 q f) := by
  unfold pts; rw [set_slot, set_slot, set_slot, set_slot, set_slot, set_slot, View.set_whole, coverQ]
  refine (pointsTo_union ?_).trans (sep_congr .rfl ((pointsTo_union ?_).trans (sep_congr .rfl ((pointsTo_union ?_).trans
    (sep_congr .rfl ((pointsTo_union ?_).trans (sep_congr .rfl (pointsTo_union ?_))))))))
  all_goals exact Finset.disjoint_left.mpr fun j a b => by simp (disch := decide) only [Finset.mem_union, mem_slab3, mem_slab4] at a b; omega

theorem split11 (c : Dev nD) (q : PosShare TreeShare) (f : Buf (Elt F) (M11.view.loc (c : Thread nD τ))) :
    (pts c M11 q f : sProp 𝕄) ⊣⊢ iprop(pts c rrS00 q f ∗ pts c rrS01 q f ∗ pts c rrS10 q f ∗ pts c rrS11 q f ∗ pts c rrS20 q f ∗ pts c rrS21 q f) := by
  unfold pts; rw [set_slot, set_slot, set_slot, set_slot, set_slot, set_slot, View.set_whole, coverQ]
  refine (pointsTo_union ?_).trans (sep_congr .rfl ((pointsTo_union ?_).trans (sep_congr .rfl ((pointsTo_union ?_).trans
    (sep_congr .rfl ((pointsTo_union ?_).trans (sep_congr .rfl (pointsTo_union ?_))))))))
  all_goals exact Finset.disjoint_left.mpr fun j a b => by simp (disch := decide) only [Finset.mem_union, mem_slab3, mem_slab4] at a b; omega

theorem shares8 (c : Dev nD) (f : Buf (Elt F) (M8.view.loc (c : Thread nD τ))) :
    (pts c M8 fullShare f : sProp 𝕄) ⊣⊢ iprop(pts c M8 qA f ∗ pts c M8 qB f ∗ pts c M8 qC f ∗ pts c M8 qD f) := by
  refine (pointsTo_share (PosShare.mem_left_op_right fullShare)).trans ?_
  refine (sep_congr (pointsTo_share (PosShare.mem_left_op_right fullShare.left))
    (pointsTo_share (PosShare.mem_left_op_right fullShare.right))).trans ?_
  exact sep_assoc

theorem mem_w32S (i : ℕ) (hi : i < 4) (j : S4x1024x1024.Idx) : j ∈ (w32S i hi).view.set ↔ (j 0).val = i := by
  rw [set_w32S i hi]; exact mem_slab3 i hi j

theorem mem_rsS (i h : ℕ) (hi : i < 3) (hh : h < 2) (j : S3x2x128x1024.Idx) :
    j ∈ (slotQ M10 i h hi hh).view.set ↔ (j 0).val = i ∧ (j 1).val = h := by
  rw [set_slot]; exact mem_slab4 i h hi hh j

end Cert.KernelIdeal.Glue
-- ==== Proof.GlueVal.lean ====
import proofs.«900515_g7700000000000516_dist_attn_self_mha_htp_bs_b1_sq256_skv256_d1024_hq8_dh128_v7x_i4_bf16_1_alg».proof.Proof.Glue
import proofs.«900515_g7700000000000516_dist_attn_self_mha_htp_bs_b1_sq256_skv256_d1024_hq8_dh128_v7x_i4_bf16_1_alg».proof.Proof.Final
import Idealize.ShloMosaic.Lib.ValueLayout

noncomputable section

namespace Cert.KernelIdeal.Glue

open Cert.KernelIdeal Cert.KernelIdeal.Gen Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- A slot's assertion depends only on what is read through the slot. -/
theorem pts_congr_read {sp : Space} {S : Shape} {e : EltTy} (c : Dev nD) (M : Memref sig .tc sp S e) (q : PosShare TreeShare)
    (f g : Buf (Elt F) (M.view.loc (c : Thread nD τ))) (h : M.view.read (Elt F) f = M.view.read (Elt F) g) :
    (pts c M q f : sProp 𝕄) = pts c M q g :=
  pointsTo_congr fun j hj => by
    obtain ⟨x, -, rfl⟩ := Finset.mem_map.mp hj
    exact eq_of_heq ((cast_heq _ _).symm.trans ((heq_of_eq (congrFun h x)).trans (cast_heq _ _)))

/-- A slot written whole is the slot at any contents that read back as the payload. -/
theorem pts_land {sp : Space} {S : Shape} {e : EltTy} (c : Dev nD) (M : Memref sig .tc sp S e) (q : PosShare TreeShare)
    (fd g : Buf (Elt F) (M.view.loc (c : Thread nD τ))) (w : Vec F S e) (hg : M.view.read (Elt F) g = w) :
    (pts c M q (M.view.write (Elt F) fd w Finset.univ) : sProp 𝕄) = pts c M q g :=
  pts_congr_read c M q _ g ((View.read_write_univ fd w).trans hg.symm)

theorem congr_rs (i h : ℕ) (c : Dev nD) (q : PosShare TreeShare) (f g : Buf (Elt F) (M10.view.loc (c : Thread nD τ)))
    (hfg : ∀ j : S3x2x128x1024.Idx, (j 0).val = i ∧ (j 1).val = h → f j = g j) (hi : i < 3 := by decide) (hh : h < 2 := by decide) :
    (pts c (slotQ M10 i h hi hh) q f : sProp 𝕄) = pts c (slotQ M10 i h hi hh) q g :=
  pointsTo_congr fun j hj => hfg j ((mem_rsS i h hi hh j).mp hj)

theorem emb_xgS (i : ℕ) (p : Fin 256) (q : Fin 1024) (hi : i < 3 := by decide) :
    (xgS i hi).view.emb (ix2 p q) = ix3 ⟨i, hi⟩ p q :=
  (congrArg (slab3 i hi).emb (reshapeEquiv_ix2_1ab _ p q)).trans (emb_slab3 i hi _)

theorem emb_w32S (i : ℕ) (p q : Fin 1024) (hi : i < 4 := by decide) :
    (w32S i hi).view.emb (ix2 p q) = ix3 ⟨i, hi⟩ p q :=
  (congrArg (slab3 i hi).emb (reshapeEquiv_ix2_1ab _ p q)).trans (emb_slab3 i hi _)

theorem emb_slotQ (M : Memref sig .tc .vmem S3x2x128x1024 .bf16) (i h : ℕ) (p : Fin 128) (q : Fin 1024)
    (hi : i < 3 := by decide) (hh : h < 2 := by decide) :
    (slotQ M i h hi hh).view.emb (ix2 p q) = M.view.emb (ix4 ⟨i, hi⟩ ⟨h, hh⟩ p q) :=
  congrArg M.view.emb ((congrArg (slab4 i h hi hh).emb (reshapeEquiv_ix2_11ab _ p q)).trans (emb_slab4 i h hi hh _))

/-- A load of one slot returns the slot with its unit leading axes. -/
theorem readAt_M9 (i : ℕ) (g : M9.view.ty.Contents (Elt F)) (hi : i < 3 := by decide) :
    M9.view.readAt (Elt F) (slab3 i hi).toLoadRect g = Final.slotOf g ⟨i, hi⟩ :=
  funext fun x => congrArg g (emb_slab3 i hi x)

theorem readAt_M7 (i : ℕ) (g : M7.view.ty.Contents (Elt F)) (hi : i < 4 := by decide) :
    M7.view.readAt (Elt F) (slab3 i hi).toLoadRect g = fun j => g (ix3 ⟨i, hi⟩ (j 1) (j 2)) :=
  funext fun x => congrArg g (emb_slab3 i hi x)

theorem readAt_M11 (i h : ℕ) (g : M11.view.ty.Contents (Elt F)) (hi : i < 3 := by decide) (hh : h < 2 := by decide) :
    M11.view.readAt (Elt F) (slab4 i h hi hh).toLoadRect g = Final.slot4Of g ⟨i, hi⟩ ⟨h, hh⟩ :=
  funext fun x => congrArg g (emb_slab4 i h hi hh x)

end Cert.KernelIdeal.Glue
-- ==== Proof.Lands.lean ====
import proofs.«900515_g7700000000000516_dist_attn_self_mha_htp_bs_b1_sq256_skv256_d1024_hq8_dh128_v7x_i4_bf16_1_alg».proof.Proof.GlueVal

noncomputable section

namespace Cert.KernelIdeal.Lands

open Cert.KernelIdeal Cert.KernelIdeal.Gen Cert.KernelIdeal.Proto Cert.KernelIdeal.Glue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

/-- Going `a` and then `b` places round the ring of four comes back when `a + b = 4`. -/
theorem back (c : Dev nD) {a b : ℕ} (h : a + b = 4) : sh (sh c a) b = c := by
  rw [sh_sh, h]; exact sh_four c

/-- The gather copy from `c` into slot `i` of the device `i + 1` places after it leaves the slot at what it ends with. -/
theorem land_ag (i : ℕ) (c : Dev nD) (fd : Buf (Elt F) (M9.view.loc (sh c (i + 1) : Thread nD τ))) (hi : i < 3 := by decide) :
    (pts (sh c (i + 1)) (xgS i hi) fullShare ((xgS i hi).view.write (Elt F) fd
        (M8.view.read (Elt F) (Final.xbfOf m c)) Finset.univ) : sProp 𝕄)
      ⊢ pts (sh c (i + 1)) (xgS i hi) fullShare (Final.xgOf m (sh c (i + 1))) :=
  Entails.of_eq (pts_land _ (xgS i hi) _ fd (Final.xgOf m (sh c (i + 1))) _ (funext fun x => by
    obtain ⟨p, q, rfl⟩ : ∃ p q, x = ix2 p q := ⟨_, _, eq_ix2 x⟩
    show Final.xgOf m (sh c (i + 1)) ((xgS i hi).view.emb (ix2 p q)) = Final.xbfOf m c (ix2 p q)
    rw [emb_xgS i p q hi]
    exact congrArg (fun d => Final.xbfOf m d (ix2 p q)) (back c (show i + 1 + (3 - i) = 4 by omega))))

/-- The scatter copy of chunk `(i, h)` from `c` into slot `(i, h)` of the device `3 - i` places after it leaves the slot at
    what it ends with. -/
theorem land_rs (i h : ℕ) (c : Dev nD) (fd : Buf (Elt F) (M11.view.loc (sh c (3 - i) : Thread nD τ)))
    (hi : i < 3 := by decide) (hh : h < 2 := by decide) :
    (pts (sh c (3 - i)) (slotQ M11 i h hi hh) fullShare ((slotQ M11 i h hi hh).view.write (Elt F) fd
        ((slotQ M10 i h hi hh).view.read (Elt F) (Final.rsOf m c)) Finset.univ) : sProp 𝕄)
      ⊢ pts (sh c (3 - i)) (slotQ M11 i h hi hh) fullShare (Final.rrOf m (sh c (3 - i))) :=
  Entails.of_eq (pts_land _ (slotQ M11 i h hi hh) _ fd (Final.rrOf m (sh c (3 - i))) _ (funext fun x => by
    obtain ⟨p, q, rfl⟩ : ∃ p q, x = ix2 p q := ⟨_, _, eq_ix2 x⟩
    show Final.rrOf m (sh c (3 - i)) ((slotQ M11 i h hi hh).view.emb (ix2 p q))
      = Final.rsOf m c ((slotQ M10 i h hi hh).view.emb (ix2 p q))
    rw [emb_slotQ M11 i h p q hi hh, emb_slotQ M10 i h p q hi hh]
    exact congrArg (fun d => Final.rsOf m d (ix4 ⟨i, hi⟩ ⟨h, hh⟩ p q)) (back c (show 3 - i + (i + 1) = 4 by omega))))

end Cert.KernelIdeal.Lands
-- ==== Proof.Steps.lean ====
import proofs.«900515_g7700000000000516_dist_attn_self_mha_htp_bs_b1_sq256_skv256_d1024_hq8_dh128_v7x_i4_bf16_1_alg».proof.Proof.Proto
import proofs.«900515_g7700000000000516_dist_attn_self_mha_htp_bs_b1_sq256_skv256_d1024_hq8_dh128_v7x_i4_bf16_1_alg».proof.Proof.Iface

noncomputable section

namespace Cert.KernelIdeal.Steps

open Cert.KernelIdeal Cert.KernelIdeal.Gen Cert.KernelIdeal.Proto Cert.KernelIdeal.Iface

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xbf : (c : Dev nD) → Buf (Elt F) ((c : Thread nD τ).loc cc0_scratch2))
  (xg : (c : Dev nD) → Buf (Elt F) ((c : Thread nD τ).loc cc0_scratch3))
  (rs : (c : Dev nD) → Buf (Elt F) ((c : Thread nD τ).loc cc0_scratch4))
  (rr : (c : Dev nD) → Buf (Elt F) ((c : Thread nD τ).loc cc0_scratch5))

omit [FloatOps F] in
/-- A chain over a list yields each of its members: every proposition here is affine. -/
theorem bigSepL_elem {I : Type} (Φ : I → sProp 𝕄) {i : I} (l : List I) (h : i ∈ l) : bigSepL l Φ ⊢ Φ i := by
  induction l with
  | nil => cases h
  | cons j l ih =>
    rw [bigSepL_cons]
    rcases List.mem_cons.1 h with rfl | h
    · exact sep_elim_left
    · exact sep_elim_right.trans (ih h)

/-- The eighteen transfer cells of a device, in the order its records list them. -/
def sems : List (DmaSem sig) :=
  [agS0, agS1, agS2, agR0, agR1, agR2, rsS00s, rsS01s, rsS10s, rsS11s, rsS20s, rsS21s,
    rsR00s, rsR01s, rsR10s, rsR11s, rsR20s, rsR21s]

/-- The nine copies a device sends: how far along the ring, its own send cell, the receive cell it fills there. -/
def copies : List (ℕ × DmaSem sig × DmaSem sig) :=
  [(1, agS0, agR0), (3, agS2, agR2), (2, agS1, agR1), (3, rsS00s, rsR00s), (3, rsS01s, rsR01s),
    (1, rsS20s, rsR20s), (1, rsS21s, rsR21s), (2, rsS10s, rsR10s), (2, rsS11s, rsR11s)]

theorem sems_mem (s : DmaSem sig) (hs : 5 ≤ s.val) : s ∈ sems := by revert s; decide

theorem copies_ge : ∀ p ∈ copies, 5 ≤ p.2.1.val ∧ 5 ≤ p.2.2.val := by decide

def ownCells (c : Dev nD) : List (GSem nD τ sig) := barCell c :: sems.map (dcell c)

def peerCells (c : Dev nD) : List (GSem nD τ sig) :=
  ([1, 2, 3].map fun e => barCell (sh c e)) ++ copies.map fun p => dcell (sh c p.1) p.2.2

theorem own_mem (c : Dev nD) {s : DmaSem sig} (hs : s ∈ sems) : dcell c s ∈ ownCells c :=
  List.mem_cons_of_mem _ (List.mem_map.2 ⟨s, hs, rfl⟩)

theorem peer_mem (c : Dev nD) {e : ℕ} {sS sR : DmaSem sig} (h : (e, sS, sR) ∈ copies) : dcell (sh c e) sR ∈ peerCells c :=
  List.mem_append_right _ (List.mem_map.2 ⟨_, h, rfl⟩)

/-- Each record of a device is the chain of one proposition over its list of cells. -/
theorem own_inv (κ : GSem nD τ sig → ℕ) (c : Dev nD) {g : GSem nD τ sig} (h : g ∈ ownCells c) :
    invsOwn xbf xg rs rr κ c ⊢ cellInv ER (sched xbf xg rs rr) (κ g) g :=
  bigSepL_elem (fun g => cellInv ER (sched xbf xg rs rr) (κ g) g) (ownCells c) h

theorem peer_inv (κ : GSem nD τ sig → ℕ) (c : Dev nD) {g : GSem nD τ sig} (h : g ∈ peerCells c) :
    invsPeer xbf xg rs rr κ c ⊢ cellInv ER (sched xbf xg rs rr) (κ g) g :=
  bigSepL_elem (fun g => cellInv ER (sched xbf xg rs rr) (κ g) g) (peerCells c) h

theorem rch (c : Dev nD) {g : GSem nD τ sig} (h : g ∈ ownCells c ++ peerCells c) :
    (reachedAll c : sProp 𝕄) ⊢ reached ER g 0 :=
  bigSepL_elem (fun g => reached ER g 0) (ownCells c ++ peerCells c) h

omit [FloatOps F] in
theorem credit_eq {sp sp' : Space} {s : Shape} {e : EltTy} (v : View sig .tc sp s e) (v' : View sig .tc sp' s e) :
    v.dmaCredit = v'.dmaCredit := rfl

/-- Waiting out the one round of an own transfer cell hands back that round's single payload. -/
theorem dma_wait (c : Dev nD) (s : DmaSem sig) (hs : 5 ≤ s.val) {N : ℕ}
    {sp : Space} {sh' : Shape} {e : EltTy} {dst : Memref sig .tc sp sh' e} {q : PosShare TreeShare}
    {f : Buf (Elt F) (dst.view.loc (c : Thread nD τ))}
    (hexp : (sched xbf xg rs rr).expect (dcell c s) 0 = N)
    (hpay : (sched xbf xg rs rr).payload (dcell c s) 0 0 = pts c dst q f)
    {sp' : Space} {s' : Shape} {e' : EltTy} {src : Memref sig .tc sp' s' e'}
    {hsrc : src.view.WordExact} {hdst : dst.view.WordExact}
    {α : Type} {Q : α → sProp 𝕄} {k : PUnit → Prog (TpuEff nD τ sig (Elt F) Λ₀ .tc) α}
    (κ : GSem nD τ sig → ℕ) (O : CellTallies nD τ sig Unit) (W : Waits sig Unit)
    (hcr : dst.view.dmaCredit = N := by exact Cert.KernelIdeal.Steps.credit_eq _ _) :
    iprop(invsOwn xbf xg rs rr κ c ∗ cred (tallyAt (dcell c s) () N)
        ∗ owes (c : Thread nD τ) O W ∗ MayWait (c : Thread nD τ) (.dma s) () O ∗ atPos ER (dcell c s) 0 ∅ 0)
      ⊢ iprop(((owes (c : Thread nD τ) O (insert (.dma s, ()) W)
              ∗ atPos ER (dcell c s) 1 ∅ 0 ∗ reached ER (dcell c s) 1 ∗ pts c dst q f)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 s src dst hsrc hdst) k) Q) := by
  rw [← hpay, ← bigSep_singleton (Φ := fun d => (sched xbf xg rs rr).payload (dcell c s) 0 d),
    ← duties_dma xbf xg rs rr c s hs, ← Finset.sdiff_empty (s := (sched xbf xg rs rr).duties (dcell c s) 0)]
  exact (sep_mono_left (own_inv xbf xg rs rr κ c (own_mem c (sems_mem s hs)))).trans
    (Rounds.wp_wait_rest_token Variants.none ER (sched xbf xg rs rr) (c : Thread nD τ) none
      (w := .waitDma2 s src dst hsrc hdst) (sm := .dma s) (k' := N)
      (fun K => (wpE_waitDma2_eq Variants.none (c : Thread nD τ) none Set.univ K).trans
        (congrArg (fun n => waitSpec (c : Thread nD τ) Set.univ (.dma s) n K) hcr))
      (Set.mem_univ _) () (O := O) (W := W) (R := 0) (T := ∅) (m := 0) (by rw [hexp]; exact Nat.zero_add _))

/-- A persistent consequence of the reached rounds can be kept beside a second one. -/
theorem rch_two (c : Dev nD) {A B : sProp 𝕄} [BI.Persistent A] (hA : (reachedAll c : sProp 𝕄) ⊢ A)
    (hB : (reachedAll c : sProp 𝕄) ⊢ B) : (reachedAll c : sProp 𝕄) ⊢ iprop(A ∗ B) :=
  (persistent_entails_right hA).trans (sep_mono_right hB)

/-- One copy of the schedule pays the sender's send cell with the source's share and the receiver's cell with the landed slot. -/
theorem send (c n : Dev nD) {e : ℕ} {sS sR : DmaSem sig} (h : (e, sS, sR) ∈ copies) (hn : n = sh c e)
    {S : Shape} {src dst : Memref sig .tc .vmem S .bf16} {q : PosShare TreeShare} {N : ℕ}
    {fs : Buf (Elt F) (src.view.loc (c : Thread nD τ))} {ff : Buf (Elt F) (dst.view.loc (sh c e : Thread nD τ))}
    (hk₁ : (sched xbf xg rs rr).amount (dcell c sS) 0 0 = N)
    (hk₂ : (sched xbf xg rs rr).amount (dcell (sh c e) sR) 0 0 = N)
    (hp₁ : (sched xbf xg rs rr).payload (dcell c sS) 0 0 = pts c src q fs)
    (hp₂ : (sched xbf xg rs rr).payload (dcell (sh c e) sR) 0 0 = pts (sh c e) dst fullShare ff)
    {hsc : (dst : Memref sig (Dev.tc n : Thread nD τ).2.kind .vmem S .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (κ : GSem nD τ sig → ℕ) (O : CellTallies nD τ sig Unit) (W : Waits sig Unit)
    (fd : Buf (Elt F) (dst.view.loc (sh c e : Thread nD τ)))
    (hland : pts (sh c e) dst fullShare (dst.view.write (Elt F) fd (src.view.read (Elt F) fs) Finset.univ)
      ⊢ pts (sh c e) dst fullShare ff) (hcr : dst.view.dmaCredit = N := by exact Cert.KernelIdeal.Steps.credit_eq _ _) :
    iprop(invsOwn xbf xg rs rr κ c ∗ invsPeer xbf xg rs rr κ c ∗ reachedAll c
        ∗ pts c src q fs ∗ pts (sh c e) dst fullShare fd
        ∗ owes (c : Thread nD τ) (O + tallyAt (dcell (sh c e) sR) () N) W
        ∗ dutyTok ER (dcell c sS) 0 (0 : Fin 4) ∗ dutyTok ER (dcell (sh c e) sR) 0 (0 : Fin 4))
      ⊢ iprop(((cred (tallyAt (dcell c sS) () N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst (.dma sS) hsc) (.dma sR) hsrc hdst hsem) k) Q) := by
  subst hn
  obtain ⟨hS, hR⟩ := copies_ge _ h
  have hs := own_mem c (sems_mem sS hS)
  have hr := peer_mem c h
  refine BIBase.Entails.trans ?_ (Rounds.wp_send_pointsTo Variants.none ER (sched xbf xg rs rr) (c : Thread nD τ) none
    (c' := (Dev.tc (sh c e) : Thread nD τ)) (src := src) (dst := dst) (sS := .dma sS) (sem := .dma sR) (q := q) (fs := fs) (fd := fd)
    (κ₁ := κ (dcell c sS)) (κ₂ := κ (dcell (sh c e) sR)) (r₁ := 0) (r₂ := 0) (d₁ := 0) (d₂ := 0)
    (by rw [duties_dma xbf xg rs rr c sS hS]; exact Finset.mem_singleton_self _)
    (by rw [duties_dma xbf xg rs rr (sh c e) sR hR]; exact Finset.mem_singleton_self _)
    () () N hcr hk₁ hk₂ O rfl (W := W) (by rw [hp₁]) (by rw [hp₂]; exact hland))
  iintro ⟨HI, HJ, HR, Hs, Hd, HO, HT1, HT2⟩
  ihave Hi := (own_inv xbf xg rs rr κ c hs) $$ HI
  ihave Hj := (peer_inv xbf xg rs rr κ c hr) $$ HJ
  ihave Hr := (rch_two c (rch c (List.mem_append_left _ hs)) (rch c (List.mem_append_right _ hr))) $$ HR
  icases Hr with ⟨Hr1, Hr2⟩
  iframe

/-- One unit to the barrier cell of the device `e` places on, paying its duty `d` with what that duty's owner is owed. -/
theorem signal (c : Dev nD) {e : ℕ} {d : Fin 4} {P : sProp 𝕄}
    (hpay : (sched xbf xg rs rr).payload (barCell (sh c e)) 0 d = P) (hd : d ∈ ({1, 2, 3} : Finset (Fin 4))) (he : e = d.val)
    {α : Type} {Q : α → sProp 𝕄} {k : PUnit → Prog (TpuEff nD τ sig (Elt F) Λ₀ .tc) α}
    (κ : GSem nD τ sig → ℕ) (O : CellTallies nD τ sig Unit) (W : Waits sig Unit) :
    iprop(invsPeer xbf xg rs rr κ c ∗ reachedAll c
        ∗ owes (c : Thread nD τ) (O + tallyAt (barCell (sh c e)) () 1) W ∗ dutyTok ER (barCell (sh c e)) 0 d ∗ P)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ
              (.op (.semSignal (sh c e : Thread nD τ) barS 1) k) Q) := by
  subst hpay
  have hm : barCell (sh c e) ∈ peerCells c :=
    List.mem_append_left _ (List.mem_map.2 ⟨e, by subst he; revert d; decide, rfl⟩)
  refine BIBase.Entails.trans ?_ (Rounds.wp_signal Variants.none ER (sched xbf xg rs rr) (c : Thread nD τ) none
    (dst := (sh c e : Thread nD τ)) (sem := barS) (r := 0) (d := d) (k' := 1) (κ := κ (barCell (sh c e)))
    (by rw [duties_bar]; exact hd) (amount_bar xbf xg rs rr (sh c e) d) () O rfl (W := W))
  iintro ⟨HI, HR, HO, HT, HP⟩
  ihave Hi := (peer_inv xbf xg rs rr κ c hm) $$ HI
  ihave Hr := (rch c (List.mem_append_right _ hm)) $$ HR
  iframe

/-- After its one round an own cell has no duty left, so the cells of a list close one after another. -/
theorem close_all (κ : GSem nD τ sig → ℕ) (c : Dev nD) : ∀ l : List (DmaSem sig), (∀ s ∈ l, s ∈ sems) →
    iprop(invsOwn xbf xg rs rr κ c ∗ bigSepL l fun s => atPos ER (dcell c s) 1 ∅ 0)
      ⊢ iprop(|={Set.univ}=> bigSepL l fun s => semVal (dcell c s) 0)
  | [], _ => by iintro -; imodintro; iempintro
  | s :: l, hl => by
    rw [bigSepL_cons, bigSepL_cons]
    show iprop(_ ∗ atPos ER (dcell c s) 1 ∅ 0 ∗ bigSepL l fun s => atPos ER (dcell c s) 1 ∅ 0)
      ⊢ iprop(|={Set.univ}=> (semVal (dcell c s) 0 ∗ bigSepL l fun s => semVal (dcell c s) 0))
    iintro ⟨HI, HA, HT⟩
    ihave H := (persistent_entails_right (own_inv xbf xg rs rr κ c (own_mem c (hl s List.mem_cons_self)))) $$ HI
    icases H with ⟨Hc, HI⟩
    imod (Rounds.cell_close ER (sched xbf xg rs rr) (Set.mem_univ (κ (dcell c s))) (fun h => h) (R := 1)
      (duties_later xbf xg rs rr (dcell c s))) $$ [Hc HA] with HZ
    · iframe
    imod (close_all κ c l fun s hs => hl s (List.mem_cons_of_mem _ hs)) $$ [HI HT] with HZs
    · iframe
    imodintro
    iframe

end Cert.KernelIdeal.Steps

end
-- ==== Proof.Ledger.lean ====
import proofs.«900515_g7700000000000516_dist_attn_self_mha_htp_bs_b1_sq256_skv256_d1024_hq8_dh128_v7x_i4_bf16_1_alg».proof.Proof.Iface

noncomputable section

namespace Cert.KernelIdeal.Ledger

open Cert.KernelIdeal Cert.KernelIdeal.Gen Cert.KernelIdeal.Proto Cert.KernelIdeal.Iface

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

macro "above_tac" : tactic => `(tactic| repeat' (first
  | exact Cert.KernelIdeal.Iface.allAbove_zero _
  | apply Cert.KernelIdeal.Iface.allAbove_add
  | (refine Cert.KernelIdeal.Iface.allAbove_tallyAt _ rfl ?_
     first
       | (rw [Cert.KernelIdeal.Iface.lv_bar]; decide)
       | (rw [Cert.KernelIdeal.Iface.lv_dma]; decide))))

end Cert.KernelIdeal.Ledger

end
-- ==== Proof.Wrap.lean ====
import proofs.«900515_g7700000000000516_dist_attn_self_mha_htp_bs_b1_sq256_skv256_d1024_hq8_dh128_v7x_i4_bf16_1_alg».proof.Proof.Iface
import proofs.«900515_g7700000000000516_dist_attn_self_mha_htp_bs_b1_sq256_skv256_d1024_hq8_dh128_v7x_i4_bf16_1_alg».proof.Proof.Steps
import proofs.«900515_g7700000000000516_dist_attn_self_mha_htp_bs_b1_sq256_skv256_d1024_hq8_dh128_v7x_i4_bf16_1_alg».proof.Proof.Glue
import proofs.«900515_g7700000000000516_dist_attn_self_mha_htp_bs_b1_sq256_skv256_d1024_hq8_dh128_v7x_i4_bf16_1_alg».proof.Proof.Proto

noncomputable section

namespace Cert.KernelIdeal.Wrap

open Cert.KernelIdeal Cert.KernelIdeal.Gen Cert.KernelIdeal.Proto Cert.KernelIdeal.Iface Cert.KernelIdeal.Glue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (xbf : (c : Dev nD) → Buf (Elt F) ((c : Thread nD τ).loc cc0_scratch2))
  (xg : (c : Dev nD) → Buf (Elt F) ((c : Thread nD τ).loc cc0_scratch3))
  (rs : (c : Dev nD) → Buf (Elt F) ((c : Thread nD τ).loc cc0_scratch4))
  (rr : (c : Dev nD) → Buf (Elt F) ((c : Thread nD τ).loc cc0_scratch5))
  (outc : (c : Dev nD) → Buf (Elt F) ((c : Thread nD τ).loc main_v1))
  (m : (ℓ : Loc nD τ sig) → Buf (Elt F) ℓ)

theorem cells_closed (κ : GSem nD τ sig → ℕ) (c : Dev nD) :
    (iprop(invsOwn xbf xg rs rr κ c
      ∗ atPos ER (dcell c agS0) 1 ∅ 0
      ∗ atPos ER (dcell c agS1) 1 ∅ 0
      ∗ atPos ER (dcell c agS2) 1 ∅ 0
      ∗ atPos ER (dcell c agR0) 1 ∅ 0
      ∗ atPos ER (dcell c agR1) 1 ∅ 0
      ∗ atPos ER (dcell c agR2) 1 ∅ 0
      ∗ atPos ER (dcell c rsS00s) 1 ∅ 0
      ∗ atPos ER (dcell c rsS01s) 1 ∅ 0
      ∗ atPos ER (dcell c rsS10s) 1 ∅ 0
      ∗ atPos ER (dcell c rsS11s) 1 ∅ 0
      ∗ atPos ER (dcell c rsS20s) 1 ∅ 0
      ∗ atPos ER (dcell c rsS21s) 1 ∅ 0
      ∗ atPos ER (dcell c rsR00s) 1 ∅ 0
      ∗ atPos ER (dcell c rsR01s) 1 ∅ 0
      ∗ atPos ER (dcell c rsR10s) 1 ∅ 0
      ∗ atPos ER (dcell c rsR11s) 1 ∅ 0
      ∗ atPos ER (dcell c rsR20s) 1 ∅ 0
      ∗ atPos ER (dcell c rsR21s) 1 ∅ 0) : sProp 𝕄)
      ⊢ iprop(|={Set.univ}=> (semVal (dcell c agS0) 0
        ∗ semVal (dcell c agS1) 0
        ∗ semVal (dcell c agS2) 0
        ∗ semVal (dcell c agR0) 0
        ∗ semVal (dcell c agR1) 0
        ∗ semVal (dcell c agR2) 0
        ∗ semVal (dcell c rsS00s) 0
        ∗ semVal (dcell c rsS01s) 0
        ∗ semVal (dcell c rsS10s) 0
        ∗ semVal (dcell c rsS11s) 0
        ∗ semVal (dcell c rsS20s) 0
        ∗ semVal (dcell c rsS21s) 0
        ∗ semVal (dcell c rsR00s) 0
        ∗ semVal (dcell c rsR01s) 0
        ∗ semVal (dcell c rsR10s) 0
        ∗ semVal (dcell c rsR11s) 0
        ∗ semVal (dcell c rsR20s) 0
        ∗ semVal (dcell c rsR21s) 0)) :=
  Steps.close_all xbf xg rs rr κ c Steps.sems fun _ h => h

theorem dmaZero_intro (c : Dev nD) :
    (iprop(ldZero c
      ∗ semVal (dcell c agS0) 0
      ∗ semVal (dcell c agS1) 0
      ∗ semVal (dcell c agS2) 0
      ∗ semVal (dcell c agR0) 0
      ∗ semVal (dcell c agR1) 0
      ∗ semVal (dcell c agR2) 0
      ∗ semVal (dcell c rsS00s) 0
      ∗ semVal (dcell c rsS01s) 0
      ∗ semVal (dcell c rsS10s) 0
      ∗ semVal (dcell c rsS11s) 0
      ∗ semVal (dcell c rsS20s) 0
      ∗ semVal (dcell c rsS21s) 0
      ∗ semVal (dcell c rsR00s) 0
      ∗ semVal (dcell c rsR01s) 0
      ∗ semVal (dcell c rsR10s) 0
      ∗ semVal (dcell c rsR11s) 0
      ∗ semVal (dcell c rsR20s) 0
      ∗ semVal (dcell c rsR21s) 0) : sProp 𝕄) ⊢ dmaZero c := by
  unfold ldZero dmaZero
  iintro ⟨⟨L0, L1, L2, L3, L4⟩, Z⟩
  iframe

theorem join7_ex (c : Dev nD) (g0 g1 g2 g3 : Buf (Elt F) (M7.view.loc (c : Thread nD τ))) :
    (iprop(pts c w32S0 fullShare g0 ∗ pts c w32S1 fullShare g1 ∗ pts c w32S2 fullShare g2 ∗ pts c w32S3 fullShare g3) : sProp 𝕄)
      ⊢ iprop(∃ f, pts c M7 fullShare f) := by
  let f : Buf (Elt F) (M7.view.loc (c : Thread nD τ)) := fun (j : S4x1024x1024.Idx) =>
    if (j 0).val = 0 then g0 j else if (j 0).val = 1 then g1 j else if (j 0).val = 2 then g2 j else g3 j
  have e (i : ℕ) (hi : i < 4) (g : Buf (Elt F) (M7.view.loc (c : Thread nD τ))) (hg : ∀ j : S4x1024x1024.Idx, (j 0).val = i → g j = f j) :
      (pts c (w32S i hi) fullShare g : sProp 𝕄) = pts c (w32S i hi) fullShare f :=
    pointsTo_congr fun j hj => hg j ((mem_w32S i hi j).mp hj)
  rw [e 0 (by decide) g0 fun j h => by simp [f, h], e 1 (by decide) g1 fun j h => by simp [f, h],
    e 2 (by decide) g2 fun j h => by simp [f, h], e 3 (by decide) g3 fun j h => by simp [f, h]]
  iintro H
  iexists f
  iapply (split7 c fullShare f).2
  iexact H

theorem scratch_intro (c : Dev nD) (g6 : Buf (Elt F) (M6.view.loc (c : Thread nD τ)))
    (g70 g71 g72 g73 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ)))
    (f11 : Buf (Elt F) (M11.view.loc (c : Thread nD τ))) (g12 : Buf (Elt F) (M12.view.loc (c : Thread nD τ))) :
    (iprop(pts c M6 fullShare g6
      ∗ pts c w32S0 fullShare g70 ∗ pts c w32S1 fullShare g71 ∗ pts c w32S2 fullShare g72 ∗ pts c w32S3 fullShare g73
      ∗ pts c M8 qA f8 ∗ pts c M8 qB f8 ∗ pts c M8 qC f8 ∗ pts c M8 qD f8
      ∗ pts c xgS0 fullShare f9 ∗ pts c xgS1 fullShare f9 ∗ pts c xgS2 fullShare f9
      ∗ pts c rsS00 fullShare f10 ∗ pts c rsS01 fullShare f10 ∗ pts c rsS10 fullShare f10 ∗ pts c rsS11 fullShare f10 ∗ pts c rsS20 fullShare f10 ∗ pts c rsS21 fullShare f10
      ∗ pts c rrS00 fullShare f11 ∗ pts c rrS01 fullShare f11 ∗ pts c rrS10 fullShare f11 ∗ pts c rrS11 fullShare f11 ∗ pts c rrS20 fullShare f11 ∗ pts c rrS21 fullShare f11
      ∗ pts c M12 fullShare g12) : sProp 𝕄) ⊢ scratch c := by
  unfold scratch
  iintro ⟨H6, H70, H71, H72, H73, H8a, H8b, H8c, H8d, H90, H91, H92, S0, S1, S2, S3, S4, S5, T0, T1, T2, T3, T4, T5, H12⟩
  isplitl [H6]; · iexists g6; iexact H6
  isplitl [H70 H71 H72 H73]; · iapply (join7_ex c g70 g71 g72 g73); iframe
  isplitl [H8a H8b H8c H8d]; · iexists f8; iapply (shares8 c f8).2; iframe
  isplitl [H90 H91 H92]; · iexists f9; iapply (split9 c fullShare f9).2; iframe
  isplitl [S0 S1 S2 S3 S4 S5]; · iexists f10; iapply (split10 c fullShare f10).2; iframe
  isplitl [T0 T1 T2 T3 T4 T5]; · iexists f11; iapply (split11 c fullShare f11).2; iframe
  iexists g12; iexact H12

theorem post_intro (c : Dev nD) :
    (iprop(argsAt m c ∗ pts c (Memref.whole main_v1) fullShare (outc c) ∗ scratch c ∗ dmaZero c) : sProp 𝕄) ⊢ Φ₁ outc m c :=
  .rfl

end Cert.KernelIdeal.Wrap

end
-- ==== Proof.Conv.lean ====
import proofs.«900515_g7700000000000516_dist_attn_self_mha_htp_bs_b1_sq256_skv256_d1024_hq8_dh128_v7x_i4_bf16_1_alg».proof.Proof.GlueVal
import proofs.«900515_g7700000000000516_dist_attn_self_mha_htp_bs_b1_sq256_skv256_d1024_hq8_dh128_v7x_i4_bf16_1_alg».proof.Proof.Final
import proofs.«900515_g7700000000000516_dist_attn_self_mha_htp_bs_b1_sq256_skv256_d1024_hq8_dh128_v7x_i4_bf16_1_alg».proof.Proof.Contents
import Idealize.ShloMosaic.Lib.Writes
import Idealize.ShloMosaic.Lib.Exec.Geometry
import Idealize.ShloMosaic.Lib.Pipeline.FrameBody
import Idealize.ShloMosaic.Lib.Pipeline.Value

noncomputable section

namespace Cert.KernelIdeal.Conv

open Cert.KernelIdeal Cert.KernelIdeal.Gen Cert.KernelIdeal.Proto Cert.KernelIdeal.Glue Cert.KernelIdeal.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

theorem zeros2 : (![0, 0] : Fin 2 → Nat) = fun _ => 0 :=
  funext fun a => by match a with | ⟨0, _⟩ => rfl | ⟨1, _⟩ => rfl
theorem zeros3 : (![0, 0, 0] : Fin 3 → Nat) = fun _ => 0 :=
  funext fun a => by match a with | ⟨0, _⟩ => rfl | ⟨1, _⟩ => rfl | ⟨2, _⟩ => rfl

-- One whole piece covers every box, so a covered read at offset zero returns the piece.
theorem readCov_whole_one {sig' : RefSig} {κ : Kind} {Val : EltTy → Type} [∀ e, Nonempty (Val e)] {sp : Space} {S : Shape} {e : EltTy}
    (v : View sig' κ sp S e) {off : Fin S.rank → Nat} (h : off = fun _ => 0) (inb : ∀ a, off a + S.size a ≤ S.size a) (w : S.Idx → Val e) :
    v.readCov [(⟨Rect.whole S, w⟩ : View.Piece Val S e)] (Rect.unit off S.size inb).toLoadRect = w := by
  rw [View.readCov_eq_canon_ld _ _ _ (fun y => ⟨_, List.mem_singleton_self _, by
    show y ∈ (Rect.whole S).set; rw [Rect.set_whole]; exact Finset.mem_univ y⟩)]
  rw [show View.canon [(⟨Rect.whole S, w⟩ : View.Piece Val S e)] = w from View.canon_unit_zero rfl _ w]
  exact View.ld_unit_zero h inb w

theorem conv8 (c : Dev nD) (f8 : Buf (Elt F) (M8.view.loc (c : Thread nD τ)))
    (a0 : Buf (Elt F) ((Memref.whole main_arg0 : Memref sig .tc .hbm S1x256x1024 .f32).view.loc (c : Thread nD τ))) :
    M8.view.writes (Elt F) f8 [⟨Rect.unit (s := S256x1024) ![0, 0] S256x1024.size inb_S256x1024_S256x1024_0_0,
        k0_pay1 (M6.view.readCov [⟨Rect.whole S1x256x1024, ReadAs.same.apply (View.read (Elt F) (Memref.whole main_arg0).view a0)⟩]
          (Rect.unit (s := S1x256x1024) ![0, 0, 0] S1x256x1024.size inb_S1x256x1024_S1x256x1024_0_0_0).toLoadRect)⟩] = Contents.xbfC a0 :=
  (Memref.write_access_unit_zero_univ (Elt F) cc0_scratch2 zeros2 inb_S256x1024_S256x1024_0_0 f8 _).trans
    (congrArg k0_pay1 (readCov_whole_one M6.view zeros3 inb_S1x256x1024_S1x256x1024_0_0_0 _))

/-- Slab `k` of the four-slab buffer, read back after one whole write of `a` through it. -/
abbrev wRd (k : Fin 4) (a : Vec F S1024x1024 .f32) : Vec F S1x1024x1024 .f32 :=
  View.readAt (Elt F) M7.view (slab3 k.val k.isLt : Rect S4x1024x1024).toLoadRect
    ((w32S k.val k.isLt).view.writes (Elt F) (w32S k.val k.isLt).view.junk [⟨Rect.whole S1024x1024, a⟩])

-- The slab is the image of the whole written piece, so every element read is an element of `a`.
theorem atomW (k : Fin 4) (a : Vec F S1024x1024 .f32) : wRd k a = Final.slab a := by
  refine (readAt_M7 k.val _ k.isLt).trans (funext fun x => ?_)
  have e : ((w32S k.val k.isLt).view.slice (Rect.whole S1024x1024)).emb (ix2 (x 1) (x 2)) = ix3 ⟨k.val, k.isLt⟩ (x 1) (x 2) := by
    show (w32S k.val k.isLt).view.emb ((Rect.whole S1024x1024).emb (ix2 (x 1) (x 2))) = _
    rw [Rect.emb_whole_apply]
    exact emb_w32S k.val (x 1) (x 2) k.isLt
  refine (congrArg ((w32S k.val k.isLt).view.writes (Elt F) _ [⟨Rect.whole S1024x1024, a⟩]) e.symm).trans ?_
  exact View.write_emb_of_mem (v := (w32S k.val k.isLt).view.slice (Rect.whole S1024x1024)) (Val := Elt F) _ a (Finset.mem_univ _)

variable (m : (ℓ : Loc nD τ sig) → Buf (Elt F) ℓ)

/-- `f` at the four weights as the body reads them back. -/
abbrev onW {α : Type} (f : FVec F S1024x1024 .bf16 → FVec F S1024x1024 .bf16 → FVec F S1024x1024 .bf16 → FVec F S1024x1024 .bf16 → α)
    (c : Dev nD) : α :=
  f (wC (wRd 0 (m ((c : Thread nD τ).loc main_arg1)))) (wC (wRd 1 (m ((c : Thread nD τ).loc main_arg3))))
    (wC (wRd 2 (m ((c : Thread nD τ).loc main_arg4)))) (wC (wRd 3 (m ((c : Thread nD τ).loc main_arg2))))

theorem onW_eq {α : Type} (f : FVec F S1024x1024 .bf16 → FVec F S1024x1024 .bf16 → FVec F S1024x1024 .bf16 → FVec F S1024x1024 .bf16 → α)
    (c : Dev nD) : onW m f c = f (Final.wqOf m c) (Final.wkOf m c) (Final.wvOf m c) (Final.woOf m c) := by
  show f (wC (wRd 0 _)) (wC (wRd 1 _)) (wC (wRd 2 _)) (wC (wRd 3 _)) = _
  rw [atomW 0, atomW 1, atomW 2, atomW 3]
  rfl

/-- The own row block, read back whole. -/
abbrev xRd (c : Dev nD) : Vec F S256x1024 .bf16 :=
  View.readAt (Elt F) M8.view (Rect.unit (s := S256x1024) ![0, 0] S256x1024.size inb_S256x1024_S256x1024_0_0).toLoadRect (Final.xbfOf m c)

theorem atomX8 (c : Dev nD) : xRd m c = Final.xbfOf m c :=
  Memref.readAt_unit_zero (Elt F) cc0_scratch2 zeros2 _ _

-- A write through slot `(i, h)` puts element `(p, q)` of the payload at `(i, h, p, q)`.
theorem write_acc (i : Fin 3) (h : Fin 2) (f10 : M10.view.ty.Contents (Elt F)) (P : Vec F S1x1x128x1024 .bf16)
    (j : S3x2x128x1024.Idx) (hj : (j 0).val = i.val ∧ (j 1).val = h.val) :
    View.write (Elt F) (M10.access (slab4 i.val h.val i.isLt h.isLt)) f10 P Finset.univ j
      = P (ix4 (0 : Fin 1) (0 : Fin 1) (j 2) (j 3)) := by
  have e : (M10.access (slab4 i.val h.val i.isLt h.isLt)).emb (ix4 (0 : Fin 1) (0 : Fin 1) (j 2) (j 3)) = j := by
    show (slab4 i.val h.val i.isLt h.isLt : Rect S3x2x128x1024).emb _ = j
    refine (emb_slab4 i.val h.val i.isLt h.isLt _).trans (funext fun a => ?_)
    match a with
    | ⟨0, _⟩ => exact Fin.ext hj.1.symm
    | ⟨1, _⟩ => exact Fin.ext hj.2.symm
    | ⟨2, _⟩ => rfl
    | ⟨3, _⟩ => rfl
  exact (congrArg (View.write (Elt F) (M10.access (slab4 i.val h.val i.isLt h.isLt)) f10 P Finset.univ) e.symm).trans
    (View.write_emb_of_mem (v := M10.access (slab4 i.val h.val i.isLt h.isLt)) (Val := Elt F) f10 P (Finset.mem_univ _))

-- Slot `(i, h)` receives the partial sum of row block `i`, half `h`, computed from what the body read: the four slabs and block `i`.
theorem conv_rs_of (c : Dev nD) (i : Fin 3) (h : Fin 2) (f10 : M10.view.ty.Contents (Elt F)) (P : Vec F S1x1x128x1024 .bf16)
    (hP : P = onW m (Contents.part i h) c (View.readAt (Elt F) M9.view (slab3 i.val i.isLt : Rect S3x256x1024).toLoadRect (Final.xgOf m c)))
    (j : S3x2x128x1024.Idx) (hj : (j 0).val = i.val ∧ (j 1).val = h.val) :
    View.write (Elt F) (M10.access (slab4 i.val h.val i.isLt h.isLt)) f10 P Finset.univ j = Final.rsOf m c j := by
  rw [onW_eq, readAt_M9 i.val _ i.isLt] at hP
  subst hP
  obtain rfl : i = ⟨(j 0).val, (j 0).isLt⟩ := Fin.ext hj.1.symm
  obtain rfl : h = ⟨(j 1).val, (j 1).isLt⟩ := Fin.ext hj.2.symm
  exact write_acc _ _ f10 _ j hj

theorem writes_whole_piece {sig' : RefSig} {κ : Kind} {Val : EltTy → Type} (b : Ref sig' κ) (f w : b.ty.Contents Val) :
    (View.whole b).writes Val f [⟨Rect.whole b.ty.shape, w⟩] = w :=
  Memref.write_access_whole_univ Val b f w

theorem read_same_whole {sig' : RefSig} {κ : Kind} {Val : EltTy → Type} (b : Ref sig' κ) (X : b.ty.Contents Val) :
    ReadAs.same.apply (View.read Val (View.whole b) X) = X := rfl

abbrev RLo : Rect S1x256x1024 :=
  Rect.unit (s := S1x256x1024) ![0, 0, 0] S1x128x1024.size inb_S1x256x1024_S1x128x1024_0_0_0
abbrev RHi : Rect S1x256x1024 :=
  Rect.unit (s := S1x256x1024) ![0, 128, 0] S1x128x1024.size inb_S1x256x1024_S1x128x1024_0_128_0

-- A block of 128 rows starting at row `o` sends `(0, p, q)` to `(0, o + p, q)`.
theorem emb_rows (o : ℕ) (inb : ∀ a, (![0, o, 0] : Fin 3 → Nat) a + S1x128x1024.size a ≤ S1x256x1024.size a) (p : Fin 128)
    (j : S1x256x1024.Idx) (hp : (j 1).val = o + p.val) :
    (Rect.unit (s := S1x256x1024) ![0, o, 0] S1x128x1024.size inb).emb (ix3 (0 : Fin 1) p (j 2)) = j := by
  have h0 : (j 0).val < 1 := (j 0).isLt
  funext a
  apply Fin.ext
  rw [Rect.emb_apply]
  match a with
  | ⟨0, _⟩ => show 0 + 1 * 0 = (j 0).val; omega
  | ⟨1, _⟩ => show o + 1 * p.val = (j 1).val; omega
  | ⟨2, _⟩ => show 0 + 1 * (j 2).val = (j 2).val; omega

-- The two stored halves tile the rows: rows below 128 come from the later piece, the rest from the earlier one.
theorem writes12 (f12 : M12.view.ty.Contents (Elt F)) (P0 P1 : Vec F S1x128x1024 .bf16) (j : S1x256x1024.Idx) :
    M12.view.writes (Elt F) f12 [⟨RHi, P1⟩, ⟨RLo, P0⟩] j
      = if h : (j 1).val < 128 then P0 (ix3 (0 : Fin 1) (⟨(j 1).val, h⟩ : Fin 128) (j 2))
        else P1 (ix3 (0 : Fin 1) (⟨(j 1).val - 128, by have h1 : (j 1).val < 256 := (j 1).isLt; omega⟩ : Fin 128) (j 2)) := by
  have hj1 : (j 1).val < 256 := (j 1).isLt
  by_cases h : (j 1).val < 128
  · rw [dif_pos h]
    have hn : j ∉ (M12.view.slice RHi).setOn Finset.univ := by
      rw [show (M12.view.slice RHi).setOn Finset.univ = RHi.set from View.set_slice_whole _ _, Rect.mem_set_unit]
      intro hh
      have l := (hh 1).1
      change 128 ≤ (j 1).val at l
      omega
    refine (View.write_of_not_mem (v := M12.view.slice RHi) (Val := Elt F) _ P1 Finset.univ hn).trans ?_
    refine (congrArg (M12.view.writes (Elt F) f12 [⟨RLo, P0⟩]) (emb_rows 0 inb_S1x256x1024_S1x128x1024_0_0_0 ⟨(j 1).val, h⟩ j (Nat.zero_add _).symm).symm).trans ?_
    exact View.write_emb_of_mem (v := M12.view.slice RLo) (Val := Elt F) f12 P0 (Finset.mem_univ _)
  · rw [dif_neg h]
    refine (congrArg (M12.view.writes (Elt F) f12 [⟨RHi, P1⟩, ⟨RLo, P0⟩])
      (emb_rows 128 inb_S1x256x1024_S1x128x1024_0_128_0 ⟨(j 1).val - 128, by omega⟩ j (by show (j 1).val = 128 + ((j 1).val - 128); omega)).symm).trans ?_
    exact View.write_emb_of_mem (v := M12.view.slice RHi) (Val := Elt F) _ P1 (Finset.mem_univ _)

-- The output is the two halves, each the own chunk plus the three received partial sums, from what the body read.
theorem conv_out_of (c : Dev nD) (a5 : Buf (Elt F) ((c : Thread nD τ).loc main_v1))
    (f12 : M12.view.ty.Contents (Elt F)) (P0 P1 : Vec F S1x128x1024 .bf16)
    (h0 : P0 = Contents.out0 (onW m Contents.own0 c (xRd m c))
      (View.readAt (Elt F) M11.view (slab4 0 0 : Rect S3x2x128x1024).toLoadRect (Final.rrOf m c))
      (View.readAt (Elt F) M11.view (slab4 2 0 : Rect S3x2x128x1024).toLoadRect (Final.rrOf m c))
      (View.readAt (Elt F) M11.view (slab4 1 0 : Rect S3x2x128x1024).toLoadRect (Final.rrOf m c)))
    (h1 : P1 = Contents.out1 (onW m Contents.own1 c (xRd m c))
      (View.readAt (Elt F) M11.view (slab4 0 1 : Rect S3x2x128x1024).toLoadRect (Final.rrOf m c))
      (View.readAt (Elt F) M11.view (slab4 2 1 : Rect S3x2x128x1024).toLoadRect (Final.rrOf m c))
      (View.readAt (Elt F) M11.view (slab4 1 1 : Rect S3x2x128x1024).toLoadRect (Final.rrOf m c))) :
    (Memref.whole main_v1).view.writes (Elt F) a5 [⟨Rect.whole main_v1.ty.shape,
        ReadAs.same.apply (View.read (Elt F) (Memref.whole cc0_scratch6).view
          (M12.view.writes (Elt F) f12 [⟨RHi, P1⟩, ⟨RLo, P0⟩]))⟩]
      = Final.outOf m c := by
  rw [onW_eq, atomX8, readAt_M11 0 0 (Final.rrOf m c), readAt_M11 2 0 (Final.rrOf m c), readAt_M11 1 0 (Final.rrOf m c)] at h0
  rw [onW_eq, atomX8, readAt_M11 0 1 (Final.rrOf m c), readAt_M11 2 1 (Final.rrOf m c), readAt_M11 1 1 (Final.rrOf m c)] at h1
  refine (writes_whole_piece main_v1 a5 _).trans ((read_same_whole cc0_scratch6 _).trans ?_)
  funext j
  refine (writes12 f12 P0 P1 j).trans ?_
  unfold Final.outOf
  rw [h0, h1]
  rfl

end Cert.KernelIdeal.Conv
-- ==== Proof.Body.lean ====
import proofs.«900515_g7700000000000516_dist_attn_self_mha_htp_bs_b1_sq256_skv256_d1024_hq8_dh128_v7x_i4_bf16_1_alg».proof.Proof.Iface
import proofs.«900515_g7700000000000516_dist_attn_self_mha_htp_bs_b1_sq256_skv256_d1024_hq8_dh128_v7x_i4_bf16_1_alg».proof.Proof.Final
import proofs.«900515_g7700000000000516_dist_attn_self_mha_htp_bs_b1_sq256_skv256_d1024_hq8_dh128_v7x_i4_bf16_1_alg».proof.Proof.Glue
import proofs.«900515_g7700000000000516_dist_attn_self_mha_htp_bs_b1_sq256_skv256_d1024_hq8_dh128_v7x_i4_bf16_1_alg».proof.Proof.GlueVal
import proofs.«900515_g7700000000000516_dist_attn_self_mha_htp_bs_b1_sq256_skv256_d1024_hq8_dh128_v7x_i4_bf16_1_alg».proof.Proof.Lands
import proofs.«900515_g7700000000000516_dist_attn_self_mha_htp_bs_b1_sq256_skv256_d1024_hq8_dh128_v7x_i4_bf16_1_alg».proof.Proof.Steps
import proofs.«900515_g7700000000000516_dist_attn_self_mha_htp_bs_b1_sq256_skv256_d1024_hq8_dh128_v7x_i4_bf16_1_alg».proof.Proof.Ledger
import proofs.«900515_g7700000000000516_dist_attn_self_mha_htp_bs_b1_sq256_skv256_d1024_hq8_dh128_v7x_i4_bf16_1_alg».proof.Proof.Wrap
import proofs.«900515_g7700000000000516_dist_attn_self_mha_htp_bs_b1_sq256_skv256_d1024_hq8_dh128_v7x_i4_bf16_1_alg».proof.Proof.Conv
import proofs.«900515_g7700000000000516_dist_attn_self_mha_htp_bs_b1_sq256_skv256_d1024_hq8_dh128_v7x_i4_bf16_1_alg».proof.Proof.Gen.KernelIdeal.Skeleton
import proofs.«900515_g7700000000000516_dist_attn_self_mha_htp_bs_b1_sq256_skv256_d1024_hq8_dh128_v7x_i4_bf16_1_alg».proof.Proof.Gen.KernelIdeal.Points
import Idealize.ShloMosaic.Lib.Tactic

noncomputable section

namespace Cert.KernelIdeal.Body

open Cert.KernelIdeal Cert.KernelIdeal.Gen Cert.KernelIdeal.Proto Cert.KernelIdeal.Iface Cert.KernelIdeal.Glue

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

attribute [local sl_canon] dev1_eq dev2_eq dev3_eq dev4_eq dev5_eq dev6_eq dev7_eq dev8_eq dev9_eq dev10_eq dev11_eq dev12_eq

variable (m : (ℓ : Loc nD τ sig) → Buf (Elt F) ℓ)

abbrev XBF : (c : Dev nD) → Buf (Elt F) ((c : Thread nD τ).loc cc0_scratch2) := fun c => Final.xbfOf m c
abbrev XG : (c : Dev nD) → Buf (Elt F) ((c : Thread nD τ).loc cc0_scratch3) := fun c => Final.xgOf m c
abbrev RS : (c : Dev nD) → Buf (Elt F) ((c : Thread nD τ).loc cc0_scratch4) := fun c => Final.rsOf m c
abbrev RR : (c : Dev nD) → Buf (Elt F) ((c : Thread nD τ).loc cc0_scratch5) := fun c => Final.rrOf m c
abbrev OUT : (c : Dev nD) → Buf (Elt F) ((c : Thread nD τ).loc main_v1) := fun c => Final.outOf m c

theorem pay_sig1 (c : Dev nD) : (sched (XBF m) (XG m) (RS m) (RR m)).payload (barCell (sh c 1)) 0 1
    = iprop((∃ f, pts c xgS2 fullShare f) ∗ (∃ f, pts c rrS00 fullShare f) ∗ (∃ f, pts c rrS01 fullShare f)) := by
  have h : sh (sh c 1) 3 = c := by rw [sh_sh]; exact sh_four c
  rw [payload_bar1, h]
theorem pay_sig2 (c : Dev nD) : (sched (XBF m) (XG m) (RS m) (RR m)).payload (barCell (sh c 2)) 0 2
    = iprop((∃ f, pts c xgS1 fullShare f) ∗ (∃ f, pts c rrS10 fullShare f) ∗ (∃ f, pts c rrS11 fullShare f)) := by
  have h : sh (sh c 2) 2 = c := by rw [sh_sh]; exact sh_four c
  rw [payload_bar2, h]
theorem pay_sig3 (c : Dev nD) : (sched (XBF m) (XG m) (RS m) (RR m)).payload (barCell (sh c 3)) 0 3
    = iprop((∃ f, pts c xgS0 fullShare f) ∗ (∃ f, pts c rrS20 fullShare f) ∗ (∃ f, pts c rrS21 fullShare f)) := by
  have h : sh (sh c 3) 1 = c := by rw [sh_sh]; exact sh_four c
  rw [payload_bar3, h]

theorem rest_bar (c : Dev nD) :
    bigSep ((sched (XBF m) (XG m) (RS m) (RR m)).duties (barCell c) 0 \ ∅) (fun d => (sched (XBF m) (XG m) (RS m) (RR m)).payload (barCell c) 0 d)
      = iprop(((∃ f, pts (sh c 3) xgS2 fullShare f) ∗ (∃ f, pts (sh c 3) rrS00 fullShare f) ∗ (∃ f, pts (sh c 3) rrS01 fullShare f))
          ∗ ((∃ f, pts (sh c 2) xgS1 fullShare f) ∗ (∃ f, pts (sh c 2) rrS10 fullShare f) ∗ (∃ f, pts (sh c 2) rrS11 fullShare f))
          ∗ ((∃ f, pts (sh c 1) xgS0 fullShare f) ∗ (∃ f, pts (sh c 1) rrS20 fullShare f) ∗ (∃ f, pts (sh c 1) rrS21 fullShare f))) := by
  rw [Finset.sdiff_empty, duties_bar, bigSep_eq_bigSepL_of_eq [1, 2, 3] (by decide) (by decide), bigSepL_cons_cons, bigSepL_cons_cons, bigSepL_singleton,
    payload_bar1, payload_bar2, payload_bar3]
  rfl

instance invsOwn_persistent (κ : GSem nD τ sig → ℕ) (c : Dev nD) : BI.Persistent (invsOwn (XBF m) (XG m) (RS m) (RR m) κ c) := by
  unfold invsOwn; infer_instance
instance invsPeer_persistent (κ : GSem nD τ sig → ℕ) (c : Dev nD) : BI.Persistent (invsPeer (XBF m) (XG m) (RS m) (RR m) κ c) := by
  unfold invsPeer; infer_instance
instance reachedAll_persistent (c : Dev nD) : BI.Persistent (reachedAll (F := F) c) := by
  unfold reachedAll; infer_instance

theorem mayWait_ld (c : Dev nD) (k : DmaSem sig) (hk : k.val < 5) (O : CellTallies nD τ sig Unit) (h : AllAbove 0 O) :
    (levAts L lv : sProp 𝕄) ⊢ MayWait (c : Thread nD τ) (.dma k) (default : Unit) O :=
  mayWait_of_above c (.dma k) 0 O (by rw [lv_dma, if_neg (by omega), if_neg (by omega)]) h

set_option maxHeartbeats 4000000 in
theorem body (c : Dev nD) : BodyGoal (XBF m) (XG m) (RS m) (RR m) (OUT m) m c := by
  unfold BodyGoal
  dsimp only [Gen.bodyAt0]
  unfold Φ₀ start scratch argsAt ldZero creds ghost
  iintro ⟨⟨⟨⟨%κ, #Hinv, #HinvP, Hpos, #Hreach, Htok⟩, ⟨HcB, HcA0, HcA1, HcA2, HcR00, HcR01, HcR10, HcR11, HcR20, HcR21⟩, #Hlev,
      ⟨Hs0, Hs1, Hs2, Hs3, Hs4⟩, ⟨HA0, HA1, HA2, HA3, HA4⟩, ⟨%a5, HA5⟩⟩,
      ⟨%f6, H6⟩, ⟨%f7, H7⟩, ⟨%f8, H8⟩, ⟨%f9, H9⟩, ⟨%f10, H10⟩, ⟨%f11, H11⟩, ⟨%f12, H12⟩⟩, Ho⟩
  unfold Dat.owesAt Pipeline.owesWithin
  icases Ho with ⟨%W, %hW, HO⟩
  rw [show (dats (XBF m) (XG m) (RS m) (RR m) (OUT m) m 0 c).owed t0_0.castSucc = O₀ c from rfl]
  unfold O₀

  ihave H7s := (split7 c fullShare f7).1 $$ H7
  icases H7s with ⟨H70, H71, H72, H73⟩
  ihave H9s := (split9 c fullShare f9).1 $$ H9
  icases H9s with ⟨H90, H91, H92⟩
  ihave H11s := (split11 c fullShare f11).1 $$ H11
  icases H11s with ⟨H1100, H1101, H1110, H1111, H1120, H1121⟩
  ihave H10s := (split10 c fullShare f10).1 $$ H10
  icases H10s with ⟨H1000, H1001, H1010, H1011, H1020, H1021⟩
  sl_unfold [cc0_body]
  sl_exec_parts (disch := simp only [sl_canon])
  unfold payToks
  icases Htok with ⟨Ht1, Ht2, Ht3, HtS0, HtS1, HtS2, HtsS00, HtsS01, HtsS10, HtsS11, HtsS20, HtsS21, HtpA0, HtpA2, HtpA1, HtpR00, HtpR01, HtpR20, HtpR21, HtpR10, HtpR11⟩

  iapply (Steps.signal (XBF m) (XG m) (RS m) (RR m) c (pay_sig1 m c) (by decide) rfl κ _ _) $$ [HO Ht1 H92 H1100 H1101]
  · iframe HinvP Hreach HO Ht1
    isplitl [H92]; · iexists _; iexact H92
    isplitl [H1100]; · iexists _; iexact H1100
    iexists _; iexact H1101
  iintro HO
  sl_exec_parts (disch := simp only [sl_canon])
  iapply (Steps.signal (XBF m) (XG m) (RS m) (RR m) c (pay_sig2 m c) (by decide) rfl κ _ _) $$ [HO Ht2 H91 H1110 H1111]
  · iframe HinvP Hreach HO Ht2
    isplitl [H91]; · iexists _; iexact H91
    isplitl [H1110]; · iexists _; iexact H1110
    iexists _; iexact H1111
  iintro HO
  sl_exec_parts (disch := simp only [sl_canon])
  iapply (Steps.signal (XBF m) (XG m) (RS m) (RR m) c (pay_sig3 m c) (by decide) rfl κ _ _) $$ [HO Ht3 H90 H1120 H1121]
  · iframe HinvP Hreach HO Ht3
    isplitl [H90]; · iexists _; iexact H90
    isplitl [H1120]; · iexists _; iexact H1120
    iexists _; iexact H1121
  iintro HO
  sl_exec_parts (disch := simp only [sl_canon])

  unfold posOwn
  icases Hpos with ⟨HpB, HpaS0, HpaS1, HpaS2, HpaR0, HpaR1, HpaR2, HpsS00, HpsS01, HpsS10, HpsS11, HpsS20, HpsS21, HpsR00, HpsR01, HpsR10, HpsR11, HpsR20, HpsR21⟩
  ihave #IB := (Steps.own_inv (XBF m) (XG m) (RS m) (RR m) κ c (g := barCell c) List.mem_cons_self) $$ Hinv
  iapply (Rounds.wp_wait_rest_token Variants.none ER (sched (XBF m) (XG m) (RS m) (RR m)) (c : Thread nD τ) none (κ := κ (barCell c))
      (wpE_semWait_eq Variants.none (c : Thread nD τ) none Set.univ) (Set.mem_univ _) () (W := W) (R := 0) (m := 0) (T := ∅)
      (by rw [expect_bar]; decide)) $$ [HcB HO HpB]
  · isplitr; · iexact IB
    isplitl [HcB]; · iexact HcB
    isplitl [HO]; · iexact HO
    isplitr
    · iapply (mayWait_of_above c (.reg barS) 1 _ (by rw [lv_bar]) (by above_tac)); iexact Hlev
    iexact HpB
  iintro ⟨HO, HpB, #RB1, Hpay⟩
  iclear IB
  ihave Hp := (Entails.of_eq (rest_bar m c)) $$ Hpay
  icases Hp with ⟨⟨⟨%g32, Hx32⟩, ⟨%g300, Hx300⟩, ⟨%g301, Hx301⟩⟩, ⟨⟨%g21, Hx21⟩, ⟨%g210, Hx210⟩, ⟨%g211, Hx211⟩⟩, ⟨%g10, Hx10⟩, ⟨%g120, Hx120⟩, ⟨%g121, Hx121⟩⟩

  have hled0 := mayWait_ld (F := F) c ⟨0, by decide⟩ (by decide)
  have hled1 := mayWait_ld (F := F) c ⟨1, by decide⟩ (by decide)
  have hled2 := mayWait_ld (F := F) c ⟨2, by decide⟩ (by decide)
  have hled3 := mayWait_ld (F := F) c ⟨3, by decide⟩ (by decide)
  have hled4 := mayWait_ld (F := F) c ⟨4, by decide⟩ (by decide)
  have hab9 : AllAbove 0 (tallyAt (dcell (sh c 2) rsR11s) () Nrs + tallyAt (dcell (sh c 2) rsR10s) () Nrs + tallyAt (dcell (sh c 1) rsR21s) () Nrs + tallyAt (dcell (sh c 1) rsR20s) () Nrs + tallyAt (dcell (sh c 3) rsR01s) () Nrs + tallyAt (dcell (sh c 3) rsR00s) () Nrs + tallyAt (dcell (sh c 2) agR1) () Nag + tallyAt (dcell (sh c 3) agR2) () Nag + tallyAt (dcell (sh c 1) agR0) () Nag : CellTallies nD τ sig Unit) := by above_tac
  have hab6 : AllAbove 0 (tallyAt (dcell (sh c 2) rsR11s) () Nrs + tallyAt (dcell (sh c 2) rsR10s) () Nrs + tallyAt (dcell (sh c 1) rsR21s) () Nrs + tallyAt (dcell (sh c 1) rsR20s) () Nrs + tallyAt (dcell (sh c 3) rsR01s) () Nrs + tallyAt (dcell (sh c 3) rsR00s) () Nrs : CellTallies nD τ sig Unit) := by above_tac
  sl_exec_parts (disch := simp only [sl_canon])
  have h8 : M8.view.writes (Elt F) f8 [⟨Rect.unit (s := S256x1024) ![0, 0] S256x1024.size inb_S256x1024_S256x1024_0_0, k0_pay1 (body.sl.v63 m c)⟩] = XBF m c := by
    sl_unfold_run_names
    exact Conv.conv8 c f8 _
  ihave H8' := (Entails.of_eq (congrArg (fun f => (pts c M8 fullShare f : sProp 𝕄)) h8)) $$ H8
  ihave H8s := (shares8 c (XBF m c)).1 $$ H8'
  icases H8s with ⟨H8A, H8B, H8C, H8D⟩

  iapply (Steps.send (XBF m) (XG m) (RS m) (RR m) c _ (by decide) (dev4_eq c) (amount_ag _ _ _ _ c agS0 (by decide) 0) (amount_ag _ _ _ _ _ agR0 (by decide) 0) (payload_agS0 _ _ _ _ c 0) (payload_agR0 _ _ _ _ _ 0) κ _ _ g10 (Lands.land_ag m 0 c g10)) $$ [H8A Hx10 HO HtS0 HtpA0]
  · iframe Hinv HinvP Hreach ∗
  iintro ⟨HcS0, HO⟩
  sl_exec_parts (disch := simp only [sl_canon])
  iapply (Steps.send (XBF m) (XG m) (RS m) (RR m) c _ (by decide) (dev5_eq c) (amount_ag _ _ _ _ c agS2 (by decide) 0) (amount_ag _ _ _ _ _ agR2 (by decide) 0) (payload_agS2 _ _ _ _ c 0) (payload_agR2 _ _ _ _ _ 0) κ _ _ g32 (Lands.land_ag m 2 c g32)) $$ [H8B Hx32 HO HtS2 HtpA2]
  · iframe Hinv HinvP Hreach ∗
  iintro ⟨HcS2, HO⟩
  sl_exec_parts (disch := simp only [sl_canon])
  iapply (Steps.send (XBF m) (XG m) (RS m) (RR m) c _ (by decide) (dev6_eq c) (amount_ag _ _ _ _ c agS1 (by decide) 0) (amount_ag _ _ _ _ _ agR1 (by decide) 0) (payload_agS1 _ _ _ _ c 0) (payload_agR1 _ _ _ _ _ 0) κ _ _ g21 (Lands.land_ag m 1 c g21)) $$ [H8C Hx21 HO HtS1 HtpA1]
  · iframe Hinv HinvP Hreach ∗
  iintro ⟨HcS1, HO⟩
  sl_exec_parts (disch := simp only [sl_canon])

  iapply (Steps.dma_wait (XBF m) (XG m) (RS m) (RR m) c agR0 (by decide) (expect_ag _ _ _ _ c agR0 (by decide) (by decide)) (payload_agR0 _ _ _ _ c 0) κ _ _) $$ [HcA0 HO HpaR0]
  · iframe Hinv ∗
    iapply (mayWait_of_above c (.dma agR0) 2 _ (by rw [lv_dma]; decide) (by above_tac)); iexact Hlev
  iintro ⟨HO, HpaR0, #RaR01, H90⟩
  sl_exec_parts (disch := simp only [sl_canon])
  ihave H1000' := (Entails.of_eq (congr_rs 0 0 c fullShare (body.sl.H1000_w1 m c f10) (RS m c) fun j hj => by
    sl_unfold_run_names
    refine Conv.conv_rs_of m c 0 0 f10 _ ?_ j hj
    rfl)) $$ H1000
  iapply (Steps.send (XBF m) (XG m) (RS m) (RR m) c _ (by decide) (dev7_eq c) (amount_rs _ _ _ _ c rsS00s (by decide) 0) (amount_rs _ _ _ _ _ rsR00s (by decide) 0) (payload_rsS00s _ _ _ _ c 0) (payload_rsR00s _ _ _ _ _ 0) κ _ _ g300 (Lands.land_rs m 0 0 c g300)) $$ [H1000' Hx300 HO HtsS00 HtpR00]
  · iframe Hinv HinvP Hreach ∗
  iintro ⟨HcS00, HO⟩
  sl_exec_parts (disch := simp only [sl_canon])
  ihave H1001' := (Entails.of_eq (congr_rs 0 1 c fullShare (body.sl.H1001_w1 m c f10) (RS m c) fun j hj => by
    sl_unfold_run_names
    refine Conv.conv_rs_of m c 0 1 f10 _ ?_ j hj
    rfl)) $$ H1001
  iapply (Steps.send (XBF m) (XG m) (RS m) (RR m) c _ (by decide) (dev8_eq c) (amount_rs _ _ _ _ c rsS01s (by decide) 0) (amount_rs _ _ _ _ _ rsR01s (by decide) 0) (payload_rsS01s _ _ _ _ c 0) (payload_rsR01s _ _ _ _ _ 0) κ _ _ g301 (Lands.land_rs m 0 1 c g301)) $$ [H1001' Hx301 HO HtsS01 HtpR01]
  · iframe Hinv HinvP Hreach ∗
  iintro ⟨HcS01, HO⟩
  sl_exec_parts (disch := simp only [sl_canon])

  iapply (Steps.dma_wait (XBF m) (XG m) (RS m) (RR m) c agR2 (by decide) (expect_ag _ _ _ _ c agR2 (by decide) (by decide)) (payload_agR2 _ _ _ _ c 0) κ _ _) $$ [HcA2 HO HpaR2]
  · iframe Hinv ∗
    iapply (mayWait_of_above c (.dma agR2) 2 _ (by rw [lv_dma]; decide) (by above_tac)); iexact Hlev
  iintro ⟨HO, HpaR2, #RaR21, H92⟩
  sl_exec_parts (disch := simp only [sl_canon])
  ihave H1020' := (Entails.of_eq (congr_rs 2 0 c fullShare (body.sl.H1020_w1 m c f10) (RS m c) fun j hj => by
    sl_unfold_run_names
    refine Conv.conv_rs_of m c 2 0 f10 _ ?_ j hj
    rfl)) $$ H1020
  iapply (Steps.send (XBF m) (XG m) (RS m) (RR m) c _ (by decide) (dev9_eq c) (amount_rs _ _ _ _ c rsS20s (by decide) 0) (amount_rs _ _ _ _ _ rsR20s (by decide) 0) (payload_rsS20s _ _ _ _ c 0) (payload_rsR20s _ _ _ _ _ 0) κ _ _ g120 (Lands.land_rs m 2 0 c g120)) $$ [H1020' Hx120 HO HtsS20 HtpR20]
  · iframe Hinv HinvP Hreach ∗
  iintro ⟨HcS20, HO⟩
  sl_exec_parts (disch := simp only [sl_canon])
  ihave H1021' := (Entails.of_eq (congr_rs 2 1 c fullShare (body.sl.H1021_w1 m c f10) (RS m c) fun j hj => by
    sl_unfold_run_names
    refine Conv.conv_rs_of m c 2 1 f10 _ ?_ j hj
    rfl)) $$ H1021
  iapply (Steps.send (XBF m) (XG m) (RS m) (RR m) c _ (by decide) (dev10_eq c) (amount_rs _ _ _ _ c rsS21s (by decide) 0) (amount_rs _ _ _ _ _ rsR21s (by decide) 0) (payload_rsS21s _ _ _ _ c 0) (payload_rsR21s _ _ _ _ _ 0) κ _ _ g121 (Lands.land_rs m 2 1 c g121)) $$ [H1021' Hx121 HO HtsS21 HtpR21]
  · iframe Hinv HinvP Hreach ∗
  iintro ⟨HcS21, HO⟩
  sl_exec_parts (disch := simp only [sl_canon])

  iapply (Steps.dma_wait (XBF m) (XG m) (RS m) (RR m) c agR1 (by decide) (expect_ag _ _ _ _ c agR1 (by decide) (by decide)) (payload_agR1 _ _ _ _ c 0) κ _ _) $$ [HcA1 HO HpaR1]
  · iframe Hinv ∗
    iapply (mayWait_of_above c (.dma agR1) 2 _ (by rw [lv_dma]; decide) (by above_tac)); iexact Hlev
  iintro ⟨HO, HpaR1, #RaR11, H91⟩
  sl_exec_parts (disch := simp only [sl_canon])
  ihave H1010' := (Entails.of_eq (congr_rs 1 0 c fullShare (body.sl.H1010_w1 m c f10) (RS m c) fun j hj => by
    sl_unfold_run_names
    refine Conv.conv_rs_of m c 1 0 f10 _ ?_ j hj
    rfl)) $$ H1010
  iapply (Steps.send (XBF m) (XG m) (RS m) (RR m) c _ (by decide) (dev11_eq c) (amount_rs _ _ _ _ c rsS10s (by decide) 0) (amount_rs _ _ _ _ _ rsR10s (by decide) 0) (payload_rsS10s _ _ _ _ c 0) (payload_rsR10s _ _ _ _ _ 0) κ _ _ g210 (Lands.land_rs m 1 0 c g210)) $$ [H1010' Hx210 HO HtsS10 HtpR10]
  · iframe Hinv HinvP Hreach ∗
  iintro ⟨HcS10, HO⟩
  sl_exec_parts (disch := simp only [sl_canon])
  ihave H1011' := (Entails.of_eq (congr_rs 1 1 c fullShare (body.sl.H1011_w1 m c f10) (RS m c) fun j hj => by
    sl_unfold_run_names
    refine Conv.conv_rs_of m c 1 1 f10 _ ?_ j hj
    rfl)) $$ H1011
  ihave HO := (Entails.of_eq (congrArg (fun O => (owes (c : Thread nD τ) O _ : sProp 𝕄)) (zero_add _).symm)) $$ HO
  iapply (Steps.send (XBF m) (XG m) (RS m) (RR m) c _ (by decide) (dev12_eq c) (amount_rs _ _ _ _ c rsS11s (by decide) 0) (amount_rs _ _ _ _ _ rsR11s (by decide) 0) (payload_rsS11s _ _ _ _ c 0) (payload_rsR11s _ _ _ _ _ 0) κ _ _ g211 (Lands.land_rs m 1 1 c g211)) $$ [H1011' Hx211 HO HtsS11 HtpR11]
  · iframe Hinv HinvP Hreach ∗
  iintro ⟨HcS11, HO⟩
  sl_exec_parts (disch := simp only [sl_canon])

  iapply (Steps.dma_wait (XBF m) (XG m) (RS m) (RR m) c rsR00s (by decide) (expect_rs _ _ _ _ c rsR00s (by decide)) (payload_rsR00s _ _ _ _ c 0) κ _ _) $$ [HcR00 HO HpsR00]
  · iframe Hinv ∗; rw [MayWait_zero]; iempintro
  iintro ⟨HO, HpsR00, #RsR001, H1100⟩
  sl_exec_parts
  iapply (Steps.dma_wait (XBF m) (XG m) (RS m) (RR m) c rsR01s (by decide) (expect_rs _ _ _ _ c rsR01s (by decide)) (payload_rsR01s _ _ _ _ c 0) κ _ _) $$ [HcR01 HO HpsR01]
  · iframe Hinv ∗; rw [MayWait_zero]; iempintro
  iintro ⟨HO, HpsR01, #RsR011, H1101⟩
  sl_exec_parts
  iapply (Steps.dma_wait (XBF m) (XG m) (RS m) (RR m) c rsR20s (by decide) (expect_rs _ _ _ _ c rsR20s (by decide)) (payload_rsR20s _ _ _ _ c 0) κ _ _) $$ [HcR20 HO HpsR20]
  · iframe Hinv ∗; rw [MayWait_zero]; iempintro
  iintro ⟨HO, HpsR20, #RsR201, H1120⟩
  sl_exec_parts
  iapply (Steps.dma_wait (XBF m) (XG m) (RS m) (RR m) c rsR21s (by decide) (expect_rs _ _ _ _ c rsR21s (by decide)) (payload_rsR21s _ _ _ _ c 0) κ _ _) $$ [HcR21 HO HpsR21]
  · iframe Hinv ∗; rw [MayWait_zero]; iempintro
  iintro ⟨HO, HpsR21, #RsR211, H1121⟩
  sl_exec_parts
  iapply (Steps.dma_wait (XBF m) (XG m) (RS m) (RR m) c rsR10s (by decide) (expect_rs _ _ _ _ c rsR10s (by decide)) (payload_rsR10s _ _ _ _ c 0) κ _ _) $$ [HcR10 HO HpsR10]
  · iframe Hinv ∗; rw [MayWait_zero]; iempintro
  iintro ⟨HO, HpsR10, #RsR101, H1110⟩
  sl_exec_parts
  iapply (Steps.dma_wait (XBF m) (XG m) (RS m) (RR m) c rsR11s (by decide) (expect_rs _ _ _ _ c rsR11s (by decide)) (payload_rsR11s _ _ _ _ c 0) κ _ _) $$ [HcR11 HO HpsR11]
  · iframe Hinv ∗; rw [MayWait_zero]; iempintro
  iintro ⟨HO, HpsR11, #RsR111, H1111⟩
  sl_exec_parts

  iapply (Steps.dma_wait (XBF m) (XG m) (RS m) (RR m) c agS0 (by decide) (expect_ag _ _ _ _ c agS0 (by decide) (by decide)) (payload_agS0 _ _ _ _ c 0) κ _ _) $$ [HcS0 HO HpaS0]
  · iframe Hinv ∗; rw [MayWait_zero]; iempintro
  iintro ⟨HO, HpaS0, #RaS01, H8A⟩
  sl_exec_parts
  iapply (Steps.dma_wait (XBF m) (XG m) (RS m) (RR m) c agS2 (by decide) (expect_ag _ _ _ _ c agS2 (by decide) (by decide)) (payload_agS2 _ _ _ _ c 0) κ _ _) $$ [HcS2 HO HpaS2]
  · iframe Hinv ∗; rw [MayWait_zero]; iempintro
  iintro ⟨HO, HpaS2, #RaS21, H8B⟩
  sl_exec_parts
  iapply (Steps.dma_wait (XBF m) (XG m) (RS m) (RR m) c agS1 (by decide) (expect_ag _ _ _ _ c agS1 (by decide) (by decide)) (payload_agS1 _ _ _ _ c 0) κ _ _) $$ [HcS1 HO HpaS1]
  · iframe Hinv ∗; rw [MayWait_zero]; iempintro
  iintro ⟨HO, HpaS1, #RaS11, H8C⟩
  sl_exec_parts
  iapply (Steps.dma_wait (XBF m) (XG m) (RS m) (RR m) c rsS00s (by decide) (expect_rs _ _ _ _ c rsS00s (by decide)) (payload_rsS00s _ _ _ _ c 0) κ _ _) $$ [HcS00 HO HpsS00]
  · iframe Hinv ∗; rw [MayWait_zero]; iempintro
  iintro ⟨HO, HpsS00, #RsS001, H1000⟩
  sl_exec_parts
  iapply (Steps.dma_wait (XBF m) (XG m) (RS m) (RR m) c rsS01s (by decide) (expect_rs _ _ _ _ c rsS01s (by decide)) (payload_rsS01s _ _ _ _ c 0) κ _ _) $$ [HcS01 HO HpsS01]
  · iframe Hinv ∗; rw [MayWait_zero]; iempintro
  iintro ⟨HO, HpsS01, #RsS011, H1001⟩
  sl_exec_parts
  iapply (Steps.dma_wait (XBF m) (XG m) (RS m) (RR m) c rsS20s (by decide) (expect_rs _ _ _ _ c rsS20s (by decide)) (payload_rsS20s _ _ _ _ c 0) κ _ _) $$ [HcS20 HO HpsS20]
  · iframe Hinv ∗; rw [MayWait_zero]; iempintro
  iintro ⟨HO, HpsS20, #RsS201, H1020⟩
  sl_exec_parts
  iapply (Steps.dma_wait (XBF m) (XG m) (RS m) (RR m) c rsS21s (by decide) (expect_rs _ _ _ _ c rsS21s (by decide)) (payload_rsS21s _ _ _ _ c 0) κ _ _) $$ [HcS21 HO HpsS21]
  · iframe Hinv ∗; rw [MayWait_zero]; iempintro
  iintro ⟨HO, HpsS21, #RsS211, H1021⟩
  sl_exec_parts
  iapply (Steps.dma_wait (XBF m) (XG m) (RS m) (RR m) c rsS10s (by decide) (expect_rs _ _ _ _ c rsS10s (by decide)) (payload_rsS10s _ _ _ _ c 0) κ _ _) $$ [HcS10 HO HpsS10]
  · iframe Hinv ∗; rw [MayWait_zero]; iempintro
  iintro ⟨HO, HpsS10, #RsS101, H1010⟩
  sl_exec_parts
  iapply (Steps.dma_wait (XBF m) (XG m) (RS m) (RR m) c rsS11s (by decide) (expect_rs _ _ _ _ c rsS11s (by decide)) (payload_rsS11s _ _ _ _ c 0) κ _ _) $$ [HcS11 HO HpsS11]
  · iframe Hinv ∗; rw [MayWait_zero]; iempintro
  iintro ⟨HO, HpsS11, #RsS111, H1011⟩
  sl_exec_parts

  have hout : (Memref.whole main_v1).view.writes (Elt F) a5 [⟨Rect.whole main_v1.ty.shape, body.sl.dma5 m c f12⟩] = OUT m c := by
    sl_unfold_run_names
    refine Conv.conv_out_of m c a5 f12 _ _ ?_ ?_ <;> rfl
  rw [wp_ret]
  imod (Wrap.cells_closed (XBF m) (XG m) (RS m) (RR m) κ c) $$ [HpaS0 HpaS1 HpaS2 HpaR0 HpaR1 HpaR2 HpsS00 HpsS01 HpsS10 HpsS11 HpsS20 HpsS21 HpsR00 HpsR01 HpsR10 HpsR11 HpsR20 HpsR21] with Hz
  · iframe Hinv ∗
  imodintro
  isplitr [HO]
  · iapply (Wrap.post_intro (OUT m) m c)
    isplitl [HA0 HA1 HA2 HA3 HA4]
    · unfold argsAt; iframe
    isplitl [HA5]
    · ihave HA5' := (Entails.of_eq (congrArg (fun f => (pts c (Memref.whole main_v1) fullShare f : sProp 𝕄)) hout)) $$ HA5
      iexact HA5'
    isplitl [H6 H70 H71 H72 H73 H8A H8B H8C H8D H90 H91 H92 H1000 H1001 H1010 H1011 H1020 H1021 H1100 H1101 H1110 H1111 H1120 H1121 H12]
    · iapply (Wrap.scratch_intro c _ _ _ _ _ (XBF m c) (XG m c) (RS m c) (RR m c) _); iframe
    · iapply (Wrap.dmaZero_intro c)
      isplitl [Hs0 Hs1 Hs2 Hs3 Hs4]
      · unfold ldZero
        isplitl [Hs0]; · iexact Hs0
        isplitl [Hs1]; · iexact Hs1
        isplitl [Hs2]; · iexact Hs2
        isplitl [Hs3]; · iexact Hs3
        iexact Hs4
      · iexact Hz
  · iexists _
    isplitr
    rotate_left
    · iexact HO
    · ipureintro; exact fun _ _ => Or.inl trivial

end Cert.KernelIdeal.Body

end
-- ==== Proof.lean ====
import proofs.«900515_g7700000000000516_dist_attn_self_mha_htp_bs_b1_sq256_skv256_d1024_hq8_dh128_v7x_i4_bf16_1_alg».proof.Defs
import proofs.«900515_g7700000000000516_dist_attn_self_mha_htp_bs_b1_sq256_skv256_d1024_hq8_dh128_v7x_i4_bf16_1_alg».proof.Proof.Gen.Kernel
import proofs.«900515_g7700000000000516_dist_attn_self_mha_htp_bs_b1_sq256_skv256_d1024_hq8_dh128_v7x_i4_bf16_1_alg».proof.Proof.Gen.KernelIdeal
import proofs.«900515_g7700000000000516_dist_attn_self_mha_htp_bs_b1_sq256_skv256_d1024_hq8_dh128_v7x_i4_bf16_1_alg».proof.Proof.Gen.ReferenceIdeal
import proofs.«900515_g7700000000000516_dist_attn_self_mha_htp_bs_b1_sq256_skv256_d1024_hq8_dh128_v7x_i4_bf16_1_alg».proof.Proof.Gen.Pre_finite_inputs_Kernel
import proofs.«900515_g7700000000000516_dist_attn_self_mha_htp_bs_b1_sq256_skv256_d1024_hq8_dh128_v7x_i4_bf16_1_alg».proof.Proof.Gen.Pre_finite_inputs_ReferenceIdeal
import proofs.«900515_g7700000000000516_dist_attn_self_mha_htp_bs_b1_sq256_skv256_d1024_hq8_dh128_v7x_i4_bf16_1_alg».proof.Proof.Gen.ReferenceIdeal.Run
import proofs.«900515_g7700000000000516_dist_attn_self_mha_htp_bs_b1_sq256_skv256_d1024_hq8_dh128_v7x_i4_bf16_1_alg».proof.Proof.Gen.ReferenceIdeal.Read
import proofs.«900515_g7700000000000516_dist_attn_self_mha_htp_bs_b1_sq256_skv256_d1024_hq8_dh128_v7x_i4_bf16_1_alg».proof.Proof.Join
import proofs.«900515_g7700000000000516_dist_attn_self_mha_htp_bs_b1_sq256_skv256_d1024_hq8_dh128_v7x_i4_bf16_1_alg».proof.Proof.Launch
import proofs.«900515_g7700000000000516_dist_attn_self_mha_htp_bs_b1_sq256_skv256_d1024_hq8_dh128_v7x_i4_bf16_1_alg».proof.Proof.Body
import Idealize.ShloMosaic.Adequacy
import Idealize.ShloMosaic.Init

noncomputable section

namespace Cert.Proof

open Idealize.ShloMosaic Idealize.SL.Sem

variable {F : FTy → Type} [FloatOps F]

-- The kernel's run at any float instance: each device's result is `outOf` of the initial memory, its arguments unchanged.
theorem kernel_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v1) = Cert.KernelIdeal.Final.outOf m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  Cert.KernelIdeal.Launch.run_main (Cert.KernelIdeal.Body.XBF m) (Cert.KernelIdeal.Body.XG m) (Cert.KernelIdeal.Body.RS m) (Cert.KernelIdeal.Body.RR m) (Cert.KernelIdeal.Body.OUT m) m ρ
    (Cert.KernelIdeal.Body.body m)

-- The idealization rewrote nothing, so the program and its idealization are one text: the frame of the first is the run above at its own float instance.
theorem frame_Kernel : Cert.frame_Kernel :=
  fun m ρ _ => (θ_run (Cert.KernelIdeal.defs (F := Bits)) _ _).mono (fun _ h c => (h c).2) (kernel_run m ρ)

theorem frame_KernelIdeal : Cert.frame_KernelIdeal :=
  fun m ρ _ => (θ_run (Cert.KernelIdeal.defs (F := Ideal)) _ _).mono (fun _ h c => (h c).2) (kernel_run m ρ)

theorem frame_ReferenceIdeal : Cert.frame_ReferenceIdeal :=
  fun m ρ _ => (θ_run (Cert.ReferenceIdeal.defs (F := Ideal)) _ _).mono (fun _ h c => (h c).2) (Cert.ReferenceIdeal.Value.run (F := Ideal) m ρ)

-- Each device's `outOf` is its block of the reference's result (the join), so the reference's value witnesses the claim.
theorem algebraic : Cert.algebraic_KernelIdeal_ReferenceIdeal :=
  fun m ρ m' ρ' _ hblk =>
    ⟨_,
      (θ_run (Cert.KernelIdeal.defs (F := Ideal)) _ _).mono (fun _ h c =>
        ⟨(h c).1.trans (Cert.Join.out_block m _ _ _ _ _ (fun c => (hblk c).1) (fun c => (hblk c).2.1) (fun c => (hblk c).2.2.1)
          (fun c => (hblk c).2.2.2.1) (fun c => (hblk c).2.2.2.2) c), (h c).2⟩) (kernel_run m ρ),
      (θ_run (Cert.ReferenceIdeal.defs (F := Ideal)) _ _).mono (fun _ h =>
        ⟨(h 0).1.trans (Cert.ReferenceIdeal.Read.val_main_v35_eq (F := Ideal) m' 0), (h 0).2⟩) (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

/-- info: 'Cert.Proof.claim' depends on axioms: [propext, Classical.choice, Quot.sound] -/
#guard_msgs in #print axioms claim

end Cert.Proof

end
